-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x51x64x64 : Shape := ⟨4, ![64, 51, 64, 64]⟩
abbrev S64x17 : Shape := ⟨2, ![64, 17]⟩
abbrev S_ : Shape := ⟨0, ![]⟩

class Facts : Prop where
  bcast_S_S64x51x64x64 : S_.BroadcastsInDim S64x51x64x64 (![] : Fin 0 → Fin S64x51x64x64.rank)
  reducesTo_S64x51x64x64_S_d0_1_2_3 : S64x51x64x64.ReducesTo [0, 1, 2, 3] S_
  h_S_ : 0 < S_.numel
  bcast_S_S64x17 : S_.BroadcastsInDim S64x17 (![] : Fin 0 → Fin S64x17.rank)
  reducesTo_S64x17_S_d0_1 : S64x17.ReducesTo [0, 1] S_

variable [Facts]

def fn {F : FTy → Type} [FloatOps F] (main_arg0 : FVec F S64x51x64x64 .f32) (main_arg1 : FVec F S64x51x64x64 .f32) (main_arg2 : FVec F S64x17 .f32) : IVec S_ 1 :=
  let main_v0 : FVec F S64x51x64x64 .f32 := Host.absf main_arg0
  let main_cst : FVec F S_ .f32 := constant S_ .f32 0x7F800000#32
  let main_v1 : FVec F S64x51x64x64 .f32 := broadcastInDim S64x51x64x64 ![] bcast_S_S64x51x64x64 main_cst
  let main_v2 : IVec S64x51x64x64 1 := cmpf .olt main_v0 main_v1
  let main_c : IVec S_ 1 := constantI S_ 1 1#1
  let main_v3 : IVec S_ 1 := (fun x v => Host.reduce IntOp.andi x v reducesTo_S64x51x64x64_S_d0_1_2_3 h_S_) main_v2 main_c
  let main_v4 : FVec F S64x51x64x64 .f32 := Host.absf main_arg1
  let main_cst_0 : FVec F S_ .f32 := constant S_ .f32 0x7F800000#32
  let main_v5 : FVec F S64x51x64x64 .f32 := broadcastInDim S64x51x64x64 ![] bcast_S_S64x51x64x64 main_cst_0
  let main_v6 : IVec S64x51x64x64 1 := cmpf .olt main_v4 main_v5
  let main_c_1 : IVec S_ 1 := constantI S_ 1 1#1
  let main_v7 : IVec S_ 1 := (fun x v => Host.reduce IntOp.andi x v reducesTo_S64x51x64x64_S_d0_1_2_3 h_S_) main_v6 main_c_1
  let main_v8 : IVec S_ 1 := andi main_v3 main_v7
  let main_v9 : FVec F S64x17 .f32 := Host.absf main_arg2
  let main_cst_2 : FVec F S_ .f32 := constant S_ .f32 0x7F800000#32
  let main_v10 : FVec F S64x17 .f32 := broadcastInDim S64x17 ![] bcast_S_S64x17 main_cst_2
  let main_v11 : IVec S64x17 1 := cmpf .olt main_v9 main_v10
  let main_c_3 : IVec S_ 1 := constantI S_ 1 1#1
  let main_v12 : IVec S_ 1 := (fun x v => Host.reduce IntOp.andi x v reducesTo_S64x17_S_d0_1 h_S_) main_v11 main_c_3
  let main_v13 : IVec S_ 1 := andi main_v8 main_v12
  main_v13
-- ==== Kernel.lean ====
abbrev S64x51x64x64 : Shape := ⟨4, ![64, 51, 64, 64]⟩
abbrev S64x17 : Shape := ⟨2, ![64, 17]⟩
abbrev S16x4x17 : Shape := ⟨3, ![16, 4, 17]⟩
abbrev S1x1 : Shape := ⟨2, ![1, 1]⟩
abbrev S4x51x64x64 : Shape := ⟨4, ![4, 51, 64, 64]⟩
abbrev S1x4x17 : Shape := ⟨3, ![1, 4, 17]⟩
abbrev S8x128 : Shape := ⟨2, ![8, 128]⟩
abbrev S4x17 : Shape := ⟨2, ![4, 17]⟩
abbrev S64x64 : Shape := ⟨2, ![64, 64]⟩
abbrev S4x1x64x64 : Shape := ⟨4, ![4, 1, 64, 64]⟩
abbrev S4x64x64 : Shape := ⟨3, ![4, 64, 64]⟩
abbrev S4x1 : Shape := ⟨2, ![4, 1]⟩
abbrev S4x1x1 : Shape := ⟨3, ![4, 1, 1]⟩
abbrev S4 : Shape := ⟨1, ![4]⟩
abbrev S1x1x1 : Shape := ⟨3, ![1, 1, 1]⟩
abbrev S1x64x64 : Shape := ⟨3, ![1, 64, 64]⟩
abbrev S1x17 : Shape := ⟨2, ![1, 17]⟩
abbrev S1x1x17 : Shape := ⟨3, ![1, 1, 17]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S64x51x64x64, .f32⟩
  | .hbm, ⟨1, _⟩ => ⟨S64x51x64x64, .f32⟩
  | .hbm, ⟨2, _⟩ => ⟨S64x17, .f32⟩
  | .hbm, ⟨3, _⟩ => ⟨S16x4x17, .f32⟩
  | .hbm, ⟨4, _⟩ => ⟨S1x1, .f32⟩
  | .hbm, ⟨5, _⟩ => ⟨S_, .f32⟩
  | .local _ .vmem, ⟨0, _⟩ => ⟨S4x51x64x64, .f32⟩
  | .local _ .vmem, ⟨1, _⟩ => ⟨S4x51x64x64, .f32⟩
  | .local _ .vmem, ⟨2, _⟩ => ⟨S4x51x64x64, .f32⟩
  | .local _ .vmem, ⟨3, _⟩ => ⟨S4x51x64x64, .f32⟩
  | .local _ .vmem, ⟨4, _⟩ => ⟨S1x4x17, .f32⟩
  | .local _ .vmem, ⟨5, _⟩ => ⟨S1x4x17, .f32⟩
  | .local _ .vmem, ⟨6, _⟩ => ⟨S1x1, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | _, _ => ⟨S64x51x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v2170 : BitVec 1 := Scalar.cmpi .eq arg0 c15_i32
  let v2171 : BitVec 32 := Scalar.extui v2170
  let c0_i32_402 : BitVec 32 := 0#32
  let v2172 : BitVec 1 := Scalar.cmpi .ne v2171 c0_i32_402
  v2172

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x51x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x51x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S64x17_S16x4x17 : S64x17.ShapeCasts S16x4x17
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4x51x64x64_S4x51x64x64_0_0_0_0 : ∀ a, (![0, 0, 0, 0] : Fin 4 → Nat) a + S4x51x64x64.size a ≤ S4x51x64x64.size a
  h_S4x51x64x64 : 0 < S4x51x64x64.numel
  inb_S1x4x17_S1x4x17_0_0_0 : ∀ a, (![0, 0, 0] : Fin 3 → Nat) a + S1x4x17.size a ≤ S1x4x17.size a
  h_S1x4x17 : 0 < S1x4x17.numel
  shapeCasts_S1x4x17_S4x17 : S1x4x17.ShapeCasts S4x17
  iota_S64x64_d0_w32 : S64x64.Iotas .tc 32 [0]
  iota_S64x64_d1_w32 : S64x64.Iotas .tc 32 [1]
  slices_S4x51x64x64_o0_0_0_0_S4x1x64x64 : S4x51x64x64.Slices ![0, 0, 0, 0] S4x1x64x64
  shapeCasts_S4x1x64x64_S4x64x64 : S4x1x64x64.ShapeCasts S4x64x64
  slices_S4x51x64x64_o0_1_0_0_S4x1x64x64 : S4x51x64x64.Slices ![0, 1, 0, 0] S4x1x64x64
  slices_S4x51x64x64_o0_2_0_0_S4x1x64x64 : S4x51x64x64.Slices ![0, 2, 0, 0] S4x1x64x64
  slices_S4x17_o0_0_S4x1 : S4x17.Slices ![0, 0] S4x1
  shapeCasts_S4x1_S4x1x1 : S4x1.ShapeCasts S4x1x1
  broadcasts_S4x1x1_S4x64x64 : S4x1x1.Broadcasts S4x64x64
  reduces_S4x64x64_S4 : S4x64x64.Reduces [1, 2] S4
  shapeCasts_S4_S4x1x1 : S4.ShapeCasts S4x1x1
  reduces_S4x1x1_S1x1 : S4x1x1.Reduces [0] S1x1
  shapeCasts_S1x1_S1x1x1 : S1x1.ShapeCasts S1x1x1
  shapeCasts_S1x1x1_S1x1 : S1x1x1.ShapeCasts S1x1
  shapeCasts_S64x64_S1x64x64 : S64x64.ShapeCasts S1x64x64
  broadcasts_S1x64x64_S4x64x64 : S1x64x64.Broadcasts S4x64x64
  natLt_1_32 : 1 < 32
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S4x51x64x64_o0_3_0_0_S4x1x64x64 : S4x51x64x64.Slices ![0, 3, 0, 0] S4x1x64x64
  slices_S4x51x64x64_o0_4_0_0_S4x1x64x64 : S4x51x64x64.Slices ![0, 4, 0, 0] S4x1x64x64
  slices_S4x51x64x64_o0_5_0_0_S4x1x64x64 : S4x51x64x64.Slices ![0, 5, 0, 0] S4x1x64x64
  slices_S4x17_o0_1_S4x1 : S4x17.Slices ![0, 1] S4x1
  inb_S8x128_S1x1_0_1 : ∀ a, (![0, 1] : Fin 2 → Nat) a + S1x1.size a ≤ S8x128.size a
  slices_S4x51x64x64_o0_6_0_0_S4x1x64x64 : S4x51x64x64.Slices ![0, 6, 0, 0] S4x1x64x64
  slices_S4x51x64x64_o0_7_0_0_S4x1x64x64 : S4x51x64x64.Slices ![0, 7, 0, 0] S4x1x64x64
  slices_S4x51x64x64_o0_8_0_0_S4x1x64x64 : S4x51x64x64.Slices ![0, 8, 0, 0] S4x1x64x64
  slices_S4x17_o0_2_S4x1 : S4x17.Slices ![0, 2] S4x1
  inb_S8x128_S1x1_0_2 : ∀ a, (![0, 2] : Fin 2 → Nat) a + S1x1.size a ≤ S8x128.size a
  slices_S4x51x64x64_o0_9_0_0_S4x1x64x64 : S4x51x64x64.Slices ![0, 9, 0, 0] S4x1x64x64
  slices_S4x51x64x64_o0_10_0_0_S4x1x64x64 : S4x51x64x64.Slices ![0, 10, 0, 0] S4x1x64x64
  slices_S4x51x64x64_o0_11_0_0_S4x1x64x64 : S4x51x64x64.Slices ![0, 11, 0, 0] S4x1x64x64
  slices_S4x17_o0_3_S4x1 : S4x17.Slices ![0, 3] S4x1
  inb_S8x128_S1x1_0_3 : ∀ a, (![0, 3] : Fin 2 → Nat) a + S1x1.size a ≤ S8x128.size a
  slices_S4x51x64x64_o0_12_0_0_S4x1x64x64 : S4x51x64x64.Slices ![0, 12, 0, 0] S4x1x64x64
  slices_S4x51x64x64_o0_13_0_0_S4x1x64x64 : S4x51x64x64.Slices ![0, 13, 0, 0] S4x1x64x64
  slices_S4x51x64x64_o0_14_0_0_S4x1x64x64 : S4x51x64x64.Slices ![0, 14, 0, 0] S4x1x64x64
  slices_S4x17_o0_4_S4x1 : S4x17.Slices ![0, 4] S4x1
  inb_S8x128_S1x1_0_4 : ∀ a, (![0, 4] : Fin 2 → Nat) a + S1x1.size a ≤ S8x128.size a
  slices_S4x51x64x64_o0_15_0_0_S4x1x64x64 : S4x51x64x64.Slices ![0, 15, 0, 0] S4x1x64x64
  slices_S4x51x64x64_o0_16_0_0_S4x1x64x64 : S4x51x64x64.Slices ![0, 16, 0, 0] S4x1x64x64
  slices_S4x51x64x64_o0_17_0_0_S4x1x64x64 : S4x51x64x64.Slices ![0, 17, 0, 0] S4x1x64x64
  slices_S4x17_o0_5_S4x1 : S4x17.Slices ![0, 5] S4x1
  inb_S8x128_S1x1_0_5 : ∀ a, (![0, 5] : Fin 2 → Nat) a + S1x1.size a ≤ S8x128.size a
  slices_S4x51x64x64_o0_18_0_0_S4x1x64x64 : S4x51x64x64.Slices ![0, 18, 0, 0] S4x1x64x64
  slices_S4x51x64x64_o0_19_0_0_S4x1x64x64 : S4x51x64x64.Slices ![0, 19, 0, 0] S4x1x64x64
  slices_S4x51x64x64_o0_20_0_0_S4x1x64x64 : S4x51x64x64.Slices ![0, 20, 0, 0] S4x1x64x64
  slices_S4x17_o0_6_S4x1 : S4x17.Slices ![0, 6] S4x1
  inb_S8x128_S1x1_0_6 : ∀ a, (![0, 6] : Fin 2 → Nat) a + S1x1.size a ≤ S8x128.size a
  slices_S4x51x64x64_o0_21_0_0_S4x1x64x64 : S4x51x64x64.Slices ![0, 21, 0, 0] S4x1x64x64
  slices_S4x51x64x64_o0_22_0_0_S4x1x64x64 : S4x51x64x64.Slices ![0, 22, 0, 0] S4x1x64x64
  slices_S4x51x64x64_o0_23_0_0_S4x1x64x64 : S4x51x64x64.Slices ![0, 23, 0, 0] S4x1x64x64
  slices_S4x17_o0_7_S4x1 : S4x17.Slices ![0, 7] S4x1
  inb_S8x128_S1x1_0_7 : ∀ a, (![0, 7] : Fin 2 → Nat) a + S1x1.size a ≤ S8x128.size a
  slices_S4x51x64x64_o0_24_0_0_S4x1x64x64 : S4x51x64x64.Slices ![0, 24, 0, 0] S4x1x64x64
  slices_S4x51x64x64_o0_25_0_0_S4x1x64x64 : S4x51x64x64.Slices ![0, 25, 0, 0] S4x1x64x64
  slices_S4x51x64x64_o0_26_0_0_S4x1x64x64 : S4x51x64x64.Slices ![0, 26, 0, 0] S4x1x64x64
  slices_S4x17_o0_8_S4x1 : S4x17.Slices ![0, 8] S4x1
  inb_S8x128_S1x1_0_8 : ∀ a, (![0, 8] : Fin 2 → Nat) a + S1x1.size a ≤ S8x128.size a
  slices_S4x51x64x64_o0_27_0_0_S4x1x64x64 : S4x51x64x64.Slices ![0, 27, 0, 0] S4x1x64x64
  slices_S4x51x64x64_o0_28_0_0_S4x1x64x64 : S4x51x64x64.Slices ![0, 28, 0, 0] S4x1x64x64
  slices_S4x51x64x64_o0_29_0_0_S4x1x64x64 : S4x51x64x64.Slices ![0, 29, 0, 0] S4x1x64x64
  slices_S4x17_o0_9_S4x1 : S4x17.Slices ![0, 9] S4x1
  inb_S8x128_S1x1_0_9 : ∀ a, (![0, 9] : Fin 2 → Nat) a + S1x1.size a ≤ S8x128.size a
  slices_S4x51x64x64_o0_30_0_0_S4x1x64x64 : S4x51x64x64.Slices ![0, 30, 0, 0] S4x1x64x64
  slices_S4x51x64x64_o0_31_0_0_S4x1x64x64 : S4x51x64x64.Slices ![0, 31, 0, 0] S4x1x64x64
  slices_S4x51x64x64_o0_32_0_0_S4x1x64x64 : S4x51x64x64.Slices ![0, 32, 0, 0] S4x1x64x64
  slices_S4x17_o0_10_S4x1 : S4x17.Slices ![0, 10] S4x1
  inb_S8x128_S1x1_0_10 : ∀ a, (![0, 10] : Fin 2 → Nat) a + S1x1.size a ≤ S8x128.size a
  slices_S4x51x64x64_o0_33_0_0_S4x1x64x64 : S4x51x64x64.Slices ![0, 33, 0, 0] S4x1x64x64
  slices_S4x51x64x64_o0_34_0_0_S4x1x64x64 : S4x51x64x64.Slices ![0, 34, 0, 0] S4x1x64x64
  slices_S4x51x64x64_o0_35_0_0_S4x1x64x64 : S4x51x64x64.Slices ![0, 35, 0, 0] S4x1x64x64
  slices_S4x17_o0_11_S4x1 : S4x17.Slices ![0, 11] S4x1
  inb_S8x128_S1x1_0_11 : ∀ a, (![0, 11] : Fin 2 → Nat) a + S1x1.size a ≤ S8x128.size a
  slices_S4x51x64x64_o0_36_0_0_S4x1x64x64 : S4x51x64x64.Slices ![0, 36, 0, 0] S4x1x64x64
  slices_S4x51x64x64_o0_37_0_0_S4x1x64x64 : S4x51x64x64.Slices ![0, 37, 0, 0] S4x1x64x64
  slices_S4x51x64x64_o0_38_0_0_S4x1x64x64 : S4x51x64x64.Slices ![0, 38, 0, 0] S4x1x64x64
  slices_S4x17_o0_12_S4x1 : S4x17.Slices ![0, 12] S4x1
  inb_S8x128_S1x1_0_12 : ∀ a, (![0, 12] : Fin 2 → Nat) a + S1x1.size a ≤ S8x128.size a
  slices_S4x51x64x64_o0_39_0_0_S4x1x64x64 : S4x51x64x64.Slices ![0, 39, 0, 0] S4x1x64x64
  slices_S4x51x64x64_o0_40_0_0_S4x1x64x64 : S4x51x64x64.Slices ![0, 40, 0, 0] S4x1x64x64
  slices_S4x51x64x64_o0_41_0_0_S4x1x64x64 : S4x51x64x64.Slices ![0, 41, 0, 0] S4x1x64x64
  slices_S4x17_o0_13_S4x1 : S4x17.Slices ![0, 13] S4x1
  inb_S8x128_S1x1_0_13 : ∀ a, (![0, 13] : Fin 2 → Nat) a + S1x1.size a ≤ S8x128.size a
  slices_S4x51x64x64_o0_42_0_0_S4x1x64x64 : S4x51x64x64.Slices ![0, 42, 0, 0] S4x1x64x64
  slices_S4x51x64x64_o0_43_0_0_S4x1x64x64 : S4x51x64x64.Slices ![0, 43, 0, 0] S4x1x64x64
  slices_S4x51x64x64_o0_44_0_0_S4x1x64x64 : S4x51x64x64.Slices ![0, 44, 0, 0] S4x1x64x64
  slices_S4x17_o0_14_S4x1 : S4x17.Slices ![0, 14] S4x1
  inb_S8x128_S1x1_0_14 : ∀ a, (![0, 14] : Fin 2 → Nat) a + S1x1.size a ≤ S8x128.size a
  slices_S4x51x64x64_o0_45_0_0_S4x1x64x64 : S4x51x64x64.Slices ![0, 45, 0, 0] S4x1x64x64
  slices_S4x51x64x64_o0_46_0_0_S4x1x64x64 : S4x51x64x64.Slices ![0, 46, 0, 0] S4x1x64x64
  slices_S4x51x64x64_o0_47_0_0_S4x1x64x64 : S4x51x64x64.Slices ![0, 47, 0, 0] S4x1x64x64
  slices_S4x17_o0_15_S4x1 : S4x17.Slices ![0, 15] S4x1
  inb_S8x128_S1x1_0_15 : ∀ a, (![0, 15] : Fin 2 → Nat) a + S1x1.size a ≤ S8x128.size a
  slices_S4x51x64x64_o0_48_0_0_S4x1x64x64 : S4x51x64x64.Slices ![0, 48, 0, 0] S4x1x64x64
  slices_S4x51x64x64_o0_49_0_0_S4x1x64x64 : S4x51x64x64.Slices ![0, 49, 0, 0] S4x1x64x64
  slices_S4x51x64x64_o0_50_0_0_S4x1x64x64 : S4x51x64x64.Slices ![0, 50, 0, 0] S4x1x64x64
  slices_S4x17_o0_16_S4x1 : S4x17.Slices ![0, 16] S4x1
  inb_S8x128_S1x1_0_16 : ∀ a, (![0, 16] : Fin 2 → Nat) a + S1x1.size a ≤ S8x128.size a
  inb_S8x128_S1x17_0_0 : ∀ a, (![0, 0] : Fin 2 → Nat) a + S1x17.size a ≤ S8x128.size a
  h_S1x17 : 0 < S1x17.numel
  shapeCasts_S1x17_S1x1x17 : S1x17.ShapeCasts S1x1x17
  reduces_S1x1x17_S1 : S1x1x17.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x51x64x64.size a ≤ S64x51x64x64.size a
  hwx0_0 : ∀ i : grid0.Coords, EltTy.bits .f32 = 32 ∨ (Rect.block (s := S64x51x64x64) S4x51x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x51x64x64.size a ≤ S64x51x64x64.size a
  hwx0_1 : ∀ i : grid0.Coords, EltTy.bits .f32 = 32 ∨ (Rect.block (s := S64x51x64x64) S4x51x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x17.size a ≤ S16x4x17.size a
  hwx0_2 : ∀ i : grid0.Coords, EltTy.bits .f32 = 32 ∨ (Rect.block (s := S16x4x17) S1x4x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4x51x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x51x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x51x64x64 : Shape := ⟨4, ![64, 51, 64, 64]⟩
abbrev S64x17 : Shape := ⟨2, ![64, 17]⟩
abbrev S64x17x3x4096 : Shape := ⟨4, ![64, 17, 3, 4096]⟩
abbrev S64x17x1x4096 : Shape := ⟨4, ![64, 17, 1, 4096]⟩
abbrev S64x17x4096 : Shape := ⟨3, ![64, 17, 4096]⟩
abbrev S64x17x1 : Shape := ⟨3, ![64, 17, 1]⟩
abbrev S_ : Shape := ⟨0, ![]⟩
abbrev S17 : Shape := ⟨1, ![17]⟩
abbrev S4096 : Shape := ⟨1, ![4096]⟩
abbrev S1x1x4096 : Shape := ⟨3, ![1, 1, 4096]⟩

abbrev nBuf : Space → Nat
  | .hbm => 174
  | .vmem => 0
  | .smem => 0
  | _ => 0

abbrev hbmTy0_0 (i : Nat) : BufTy := match i % 128 with
  | 0 => ⟨S64x51x64x64, .f32⟩
  | 1 => ⟨S64x51x64x64, .f32⟩
  | 2 => ⟨S64x17, .f32⟩
  | 3 => ⟨S64x17x3x4096, .f32⟩
  | 4 => ⟨S64x17x3x4096, .f32⟩
  | 5 => ⟨S64x17x1x4096, .f32⟩
  | 6 => ⟨S64x17x4096, .f32⟩
  | 7 => ⟨S64x17x1x4096, .f32⟩
  | 8 => ⟨S64x17x4096, .f32⟩
  | 9 => ⟨S64x17x1x4096, .f32⟩
  | 10 => ⟨S64x17x4096, .f32⟩
  | 11 => ⟨S64x17x1x4096, .f32⟩
  | 12 => ⟨S64x17x4096, .f32⟩
  | 13 => ⟨S64x17x1x4096, .f32⟩
  | 14 => ⟨S64x17x4096, .f32⟩
  | 15 => ⟨S64x17x1x4096, .f32⟩
  | 16 => ⟨S64x17x4096, .f32⟩
  | 17 => ⟨S64x17x1, .f32⟩
  | 18 => ⟨S64x17x4096, .f32⟩
  | 19 => ⟨S64x17x4096, .f32⟩
  | 20 => ⟨S64x17x4096, .f32⟩
  | 21 => ⟨S64x17x4096, .f32⟩
  | 22 => ⟨S64x17x4096, .f32⟩
  | 23 => ⟨S64x17x4096, .f32⟩
  | 24 => ⟨S_, .f32⟩
  | 25 => ⟨S17, .f32⟩
  | 26 => ⟨S_, .f32⟩
  | 27 => ⟨S17, .f32⟩
  | 28 => ⟨S17, .f32⟩
  | 29 => ⟨S_, .f32⟩
  | 30 => ⟨S17, .f32⟩
  | 31 => ⟨S17, .f32⟩
  | 32 => ⟨S4096, .i32⟩
  | 33 => ⟨S_, .i32⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i32⟩
  | 42 => ⟨S4096, .i32⟩
  | 43 => ⟨S_, .i32⟩
  | 44 => ⟨S4096, .i32⟩
  | 45 => ⟨S4096, .i1⟩
  | 46 => ⟨S4096, .i1⟩
  | 47 => ⟨S_, .i32⟩
  | 48 => ⟨S4096, .i32⟩
  | 49 => ⟨S4096, .i32⟩
  | 50 => ⟨S4096, .i32⟩
  | 51 => ⟨S4096, .f32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i1⟩
  | 63 => ⟨S_, .i32⟩
  | 64 => ⟨S4096, .i32⟩
  | 65 => ⟨S4096, .i1⟩
  | 66 => ⟨S_, .i32⟩
  | 67 => ⟨S_, .i1⟩
  | 68 => ⟨S4096, .i1⟩
  | 69 => ⟨S4096, .i1⟩
  | 70 => ⟨S4096, .i1⟩
  | 71 => ⟨S4096, .i32⟩
  | 72 => ⟨S4096, .i32⟩
  | 73 => ⟨S4096, .i32⟩
  | 74 => ⟨S4096, .f32⟩
  | 75 => ⟨S1x1x4096, .f32⟩
  | 76 => ⟨S64x17x4096, .f32⟩
  | 77 => ⟨S64x17x4096, .f32⟩
  | 78 => ⟨S1x1x4096, .f32⟩
  | 79 => ⟨S64x17x4096, .f32⟩
  | 80 => ⟨S64x17x4096, .f32⟩
  | 81 => ⟨S1x1x4096, .f32⟩
  | 82 => ⟨S64x17x4096, .f32⟩
  | 83 => ⟨S64x17x4096, .f32⟩
  | 84 => ⟨S1x1x4096, .f32⟩
  | 85 => ⟨S64x17x4096, .f32⟩
  | 86 => ⟨S64x17x4096, .f32⟩
  | 87 => ⟨S1x1x4096, .f32⟩
  | 88 => ⟨S64x17x4096, .f32⟩
  | 89 => ⟨S64x17x4096, .f32⟩
  | 90 => ⟨S1x1x4096, .f32⟩
  | 91 => ⟨S64x17x4096, .f32⟩
  | 92 => ⟨S64x17x4096, .f32⟩
  | 93 => ⟨S1x1x4096, .f32⟩
  | 94 => ⟨S64x17x4096, .f32⟩
  | 95 => ⟨S64x17x4096, .f32⟩
  | 96 => ⟨S1x1x4096, .f32⟩
  | 97 => ⟨S64x17x4096, .f32⟩
  | 98 => ⟨S64x17x4096, .f32⟩
  | 99 => ⟨S1x1x4096, .f32⟩
  | 100 => ⟨S64x17x4096, .f32⟩
  | 101 => ⟨S64x17x4096, .f32⟩
  | 102 => ⟨S1x1x4096, .f32⟩
  | 103 => ⟨S64x17x4096, .f32⟩
  | 104 => ⟨S64x17x4096, .f32⟩
  | 105 => ⟨S1x1x4096, .f32⟩
  | 106 => ⟨S64x17x4096, .f32⟩
  | 107 => ⟨S64x17x4096, .f32⟩
  | 108 => ⟨S1x1x4096, .f32⟩
  | 109 => ⟨S64x17x4096, .f32⟩
  | 110 => ⟨S64x17x4096, .f32⟩
  | 111 => ⟨S64x17x4096, .f32⟩
  | 112 => ⟨S64x17x4096, .f32⟩
  | 113 => ⟨S64x17x4096, .f32⟩
  | 114 => ⟨S_, .f32⟩
  | 115 => ⟨S_, .f32⟩
  | 116 => ⟨S64x17x4096, .f32⟩
  | 117 => ⟨S64x17x4096, .f32⟩
  | 118 => ⟨S64x17x4096, .f32⟩
  | 119 => ⟨S64x17x4096, .f32⟩
  | 120 => ⟨S64x17x4096, .f32⟩
  | 121 => ⟨S_, .f32⟩
  | 122 => ⟨S_, .f32⟩
  | 123 => ⟨S64x17x4096, .f32⟩
  | 124 => ⟨S64x17x4096, .f32⟩
  | 125 => ⟨S64x17x4096, .f32⟩
  | 126 => ⟨S64x17x4096, .f32⟩
  | 127 => ⟨S64x17x4096, .f32⟩
  | _ => ⟨S64x51x64x64, .f32⟩

abbrev hbmTy0_1 (i : Nat) : BufTy := match i % 128 with
  | 0 => ⟨S64x17x4096, .f32⟩
  | 1 => ⟨S64x17x4096, .f32⟩
  | 2 => ⟨S64x17x4096, .f32⟩
  | 3 => ⟨S64x17x4096, .f32⟩
  | 4 => ⟨S64x17x4096, .f32⟩
  | 5 => ⟨S64x17x4096, .f32⟩
  | 6 => ⟨S_, .f32⟩
  | 7 => ⟨S64x17x4096, .f32⟩
  | 8 => ⟨S64x17x4096, .f32⟩
  | 9 => ⟨S64x17x4096, .f32⟩
  | 10 => ⟨S64x17x4096, .f32⟩
  | 11 => ⟨S64x17x4096, .f32⟩
  | 12 => ⟨S64x17x4096, .f32⟩
  | 13 => ⟨S64x17x4096, .f32⟩
  | 14 => ⟨S64x17x4096, .f32⟩
  | 15 => ⟨S64x17x4096, .f32⟩
  | 16 => ⟨S_, .f32⟩
  | 17 => ⟨S64x17x4096, .f32⟩
  | 18 => ⟨S64x17x4096, .f32⟩
  | 19 => ⟨S64x17x4096, .f32⟩
  | 20 => ⟨S64x17x4096, .f32⟩
  | 21 => ⟨S64x17x4096, .f32⟩
  | 22 => ⟨S64x17x4096, .f32⟩
  | 23 => ⟨S_, .f32⟩
  | 24 => ⟨S64x17x4096, .f32⟩
  | 25 => ⟨S64x17x4096, .f32⟩
  | 26 => ⟨S_, .f32⟩
  | 27 => ⟨S64x17x4096, .f32⟩
  | 28 => ⟨S64x17x4096, .i1⟩
  | 29 => ⟨S64x17x4096, .f32⟩
  | 30 => ⟨S64x17x4096, .f32⟩
  | 31 => ⟨S_, .f32⟩
  | 32 => ⟨S17, .f32⟩
  | 33 => ⟨S_, .f32⟩
  | 34 => ⟨S17, .f32⟩
  | 35 => ⟨S_, .f32⟩
  | 36 => ⟨S17, .f32⟩
  | 37 => ⟨S17, .f32⟩
  | 38 => ⟨S17, .f32⟩
  | 39 => ⟨S17, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S64x51x64x64, .f32⟩

abbrev hbmTy (i : Nat) : BufTy := match i / 128 with
  | 0 => hbmTy0_0 i
  | 1 => hbmTy0_1 i
  | _ => ⟨S64x51x64x64, .f32⟩

abbrev bufTy : (tb : Table) → Fin (tcTables nBuf tb) → BufTy
  | .hbm, ⟨i, _⟩ => hbmTy i
  | _, _ => ⟨S64x51x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v27 : Ref sig .tc := ⟨.hbm, 50, rfl⟩
abbrev main_v28 : Ref sig .tc := ⟨.hbm, 51, rfl⟩
abbrev main_c_2 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_3 : Ref sig .tc := ⟨.hbm, 114, rfl⟩
abbrev main_call2_v0 : Ref sig .tc := ⟨.hbm, 115, rfl⟩
abbrev main_call2_v1 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_4 : Ref sig .tc := ⟨.hbm, 121, rfl⟩
abbrev main_call3_v0 : Ref sig .tc := ⟨.hbm, 122, rfl⟩
abbrev main_call3_v1 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_5 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_6 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_7 : Ref sig .tc := ⟨.hbm, 151, rfl⟩
abbrev main_v99 : Ref sig .tc := ⟨.hbm, 152, rfl⟩
abbrev main_v100 : Ref sig .tc := ⟨.hbm, 153, rfl⟩
abbrev main_cst_8 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_9 : Ref sig .tc := ⟨.hbm, 159, rfl⟩
abbrev main_v105 : Ref sig .tc := ⟨.hbm, 160, rfl⟩
abbrev main_cst_10 : Ref sig .tc := ⟨.hbm, 161, rfl⟩
abbrev main_v106 : Ref sig .tc := ⟨.hbm, 162, rfl⟩
abbrev main_cst_11 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_12 : Ref sig .tc := ⟨.hbm, 168, rfl⟩
abbrev main_v111 : Ref sig .tc := ⟨.hbm, 169, rfl⟩
abbrev main_cst_13 : Ref sig .tc := ⟨.hbm, 170, rfl⟩
abbrev main_v112 : Ref sig .tc := ⟨.hbm, 171, rfl⟩
abbrev main_cst_14 : Ref sig .tc := ⟨.hbm, 172, rfl⟩
abbrev main_v113 : Ref sig .tc := ⟨.hbm, 173, rfl⟩

abbrev nD : Nat := 1
abbrev τ : Topo := Topo.v7x

variable {F : FTy → Type} [FloatOps F]

class Facts₀ : Prop where
  shapeCasts_S64x51x64x64_S64x17x3x4096 : S64x51x64x64.ShapeCasts S64x17x3x4096
  slices_S64x17x3x4096_S64x17x1x4096_0_0_0_0 : S64x17x3x4096.Slices ![0, 0, 0, 0] S64x17x1x4096
  shapeCasts_S64x17x1x4096_S64x17x4096 : S64x17x1x4096.ShapeCasts S64x17x4096
  slices_S64x17x3x4096_S64x17x1x4096_0_0_1_0 : S64x17x3x4096.Slices ![0, 0, 1, 0] S64x17x1x4096
  slices_S64x17x3x4096_S64x17x1x4096_0_0_2_0 : S64x17x3x4096.Slices ![0, 0, 2, 0] S64x17x1x4096
  bcast_S64x17_S64x17x1_0_1 : S64x17.BroadcastsInDim S64x17x1 (![0, 1] : Fin 2 → Fin S64x17x1.rank)
  bcast_S64x17x1_S64x17x4096_0_1_2 : S64x17x1.BroadcastsInDim S64x17x4096 (![0, 1, 2] : Fin 3 → Fin S64x17x4096.rank)
  reducesTo_S64x17x4096_S17_d0_2 : S64x17x4096.ReducesTo [0, 2] S17
  h_S_ : 0 < S_.numel
  bcast_S_S17 : S_.BroadcastsInDim S17 (![] : Fin 0 → Fin S17.rank)
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S64x17x4096_0_1_2 : S1x1x4096.BroadcastsInDim S64x17x4096 (![0, 1, 2] : Fin 3 → Fin S64x17x4096.rank)
  bcast_S_S64x17x4096 : S_.BroadcastsInDim S64x17x4096 (![] : Fin 0 → Fin S64x17x4096.rank)
  reducesTo_S17_S_d0 : S17.ReducesTo [0] S_

variable [Facts₀]

class Facts : Prop extends Facts₀ where

variable [Facts]
-- ==== Proof.Loss.lean ====
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Loss

def coord (n : Nat) : EReal := (((BitVec.ofNat 32 n).toInt : ℝ) : EReal)

abbrev zeroC : EReal := Ideal.ofBits .f32 0x00000000#32
abbrev oneC : EReal := Ideal.ofBits .f32 0x3F800000#32
abbrev epsC : EReal := Ideal.ofBits .f32 0x33D6BF95#32
abbrev halfC : EReal := Ideal.ofBits .f32 0x3F000000#32
abbrev countC : EReal := Ideal.ofBits .f32 0x48800000#32
abbrev jointsC : EReal := Ideal.ofBits .f32 0x41880000#32

/-- A pixel's squared difference of the two heat-map entries, both scaled by the joint's weight. -/
def sqCell (hp hg w : EReal) : EReal := (hp * w - hg * w) * (hp * w - hg * w)

/-- 1 where the weighted target entry is non-zero, 0 elsewhere. -/
def maskCell (hg w : EReal) : EReal := (((Ideal.cmp .one (hg * w) zeroC).toNat : ℝ) : EReal)

/-- One minus the generalised IoU of the two boxes spanned by the pixel (hi, wi) and its two offsets. -/
def lossCell (hi wi oxp oyp oxg oyg : EReal) : EReal :=
  let px1 := min hi (hi + oxp)
  let py1 := min wi (wi + oyp)
  let px2 := max hi (hi + oxp)
  let py2 := max wi (wi + oyp)
  let gx1 := min hi (hi + oxg)
  let gy1 := min wi (wi + oyg)
  let gx2 := max hi (hi + oxg)
  let gy2 := max wi (wi + oyg)
  let iw := max (min px2 gx2 - max px1 gx1) zeroC
  let ih := max (min py2 gy2 - max py1 gy1) zeroC
  let inter := iw * ih
  let union := (px2 - px1) * (py2 - py1) + (gx2 - gx1) * (gy2 - gy1) - inter + epsC
  let areaC := (max px2 gx2 - min px1 gx1) * (max py2 gy2 - min py1 gy1) + epsC
  oneC - (Ideal.div inter union - Ideal.div (areaC - union) areaC)

abbrev SX : Shape := ⟨4, ![64, 51, 64, 64]⟩
abbrev SW : Shape := ⟨2, ![64, 17]⟩

def chan (k : Fin 17) (j : Fin 3) : Fin 51 := ⟨3 * k.val + j.val, by have := k.isLt; have := j.isLt; omega⟩

def sqAt (X Y : SX.Idx → EReal) (W : SW.Idx → EReal) (b : Fin 64) (k : Fin 17) (r c : Fin 64) : EReal :=
  sqCell (X (ix4 b (chan k 0) r c)) (Y (ix4 b (chan k 0) r c)) (W (ix2 b k))

def maskAt (Y : SX.Idx → EReal) (W : SW.Idx → EReal) (b : Fin 64) (k : Fin 17) (r c : Fin 64) : EReal :=
  maskCell (Y (ix4 b (chan k 0) r c)) (W (ix2 b k))

def numAt (X Y : SX.Idx → EReal) (W : SW.Idx → EReal) (b : Fin 64) (k : Fin 17) (r c : Fin 64) : EReal :=
  lossCell (coord r.val) (coord c.val) (X (ix4 b (chan k 1) r c)) (X (ix4 b (chan k 2) r c))
      (Y (ix4 b (chan k 1) r c)) (Y (ix4 b (chan k 2) r c))
    * maskAt Y W b k r c

def sumSq (X Y : SX.Idx → EReal) (W : SW.Idx → EReal) (k : Fin 17) : EReal := ∑ b : Fin 64, ∑ r : Fin 64, ∑ c : Fin 64, sqAt X Y W b k r c
def sumNum (X Y : SX.Idx → EReal) (W : SW.Idx → EReal) (k : Fin 17) : EReal := ∑ b : Fin 64, ∑ r : Fin 64, ∑ c : Fin 64, numAt X Y W b k r c
def sumDen (Y : SX.Idx → EReal) (W : SW.Idx → EReal) (k : Fin 17) : EReal := ∑ b : Fin 64, ∑ r : Fin 64, ∑ c : Fin 64, maskAt Y W b k r c

/-- A joint's share: half its mean squared difference plus its masked box loss over max(count, 1). -/
def jointTerm (s n d : EReal) : EReal :=
  Ideal.div (halfC * s) countC + Ideal.div n (max d oneC)

/-- The loss: the mean over the 17 joints of their shares. -/
def total (X Y : SX.Idx → EReal) (W : SW.Idx → EReal) : EReal :=
  Ideal.div (∑ k : Fin 17, jointTerm (sumSq X Y W k) (sumNum X Y W k) (sumDen Y W k)) jointsC * oneC

end Cert.Loss

end
-- ==== Proof.Tile.lean ====
import proofs.«405258_j67929202754306_4_alg».proof.Proof.Gen.KernelIdeal
import proofs.«405258_j67929202754306_4_alg».proof.Proof.Loss
import Idealize.ShloMosaic.Lib.ValueIdx
import Idealize.ShloMosaic.Lib.Pipeline.Value
import Idealize.ShloMosaic.PureOps.Ideal.Laws
import Idealize.ShloMosaic.Lib.ValueLayout

noncomputable section

open Idealize.ShloMosaic Idealize.ShloMosaic.ValueIdx

namespace Cert.KernelIdeal.Tile

open Cert.KernelIdeal Cert.KernelIdeal.Gen Cert.Loss

variable {F : FTy → Type} [FloatOps F]

theorem slicesChan (o : Nat) (h : o < 51) : S4x51x64x64.Slices ![0, o, 0, 0] S4x1x64x64 :=
  ⟨rfl, fun a => by
    match a with
    | ⟨0, _⟩ => show (0 : ℕ) + 4 ≤ 4; omega
    | ⟨1, _⟩ => show o + 1 ≤ 51; omega
    | ⟨2, _⟩ => show (0 : ℕ) + 64 ≤ 64; omega
    | ⟨3, _⟩ => show (0 : ℕ) + 64 ≤ 64; omega⟩

theorem slicesCol (l : Nat) (h : l < 17) : S4x17.Slices ![0, l] S4x1 :=
  ⟨rfl, fun a => by
    match a with
    | ⟨0, _⟩ => show (0 : ℕ) + 4 ≤ 4; omega
    | ⟨1, _⟩ => show l + 1 ≤ 17; omega⟩

def rowF : FVec F S64x64 .f32 := sitofp .f32 (iota .tc S64x64 32 [0] iota_S64x64_d0_w32)
def colF : FVec F S64x64 .f32 := sitofp .f32 (iota .tc S64x64 32 [1] iota_S64x64_d1_w32)

def rowB : FVec F S4x64x64 .f32 :=
  broadcastTo S4x64x64 (shapeCast S1x64x64 (rowF (F := F)) shapeCasts_S64x64_S1x64x64) broadcasts_S1x64x64_S4x64x64
def colB : FVec F S4x64x64 .f32 :=
  broadcastTo S4x64x64 (shapeCast S1x64x64 (colF (F := F)) shapeCasts_S64x64_S1x64x64) broadcasts_S1x64x64_S4x64x64

def chanOf (o : Nat) (hs : S4x51x64x64.Slices ![0, o, 0, 0] S4x1x64x64) (v : Vec F S4x51x64x64 .f32) : FVec F S4x64x64 .f32 :=
  shapeCast S4x64x64 (extractStridedSlice S4x1x64x64 ![0, o, 0, 0] v hs) shapeCasts_S4x1x64x64_S4x64x64

def colOf (l : Nat) (hw : S4x17.Slices ![0, l] S4x1) (v6 : FVec F S4x17 .f32) : FVec F S4x1x1 .f32 :=
  shapeCast S4x1x1 (extractStridedSlice S4x1 ![0, l] v6 hw) shapeCasts_S4x1_S4x1x1
def wOf (l : Nat) (hw : S4x17.Slices ![0, l] S4x1) (v6 : FVec F S4x17 .f32) : FVec F S4x64x64 .f32 :=
  broadcastTo S4x64x64 (colOf l hw v6) broadcasts_S4x1x1_S4x64x64

def sum2 (v : FVec F S4x64x64 .f32) : FVec F S1x1 .f32 :=
  shapeCast S1x1
    (shapeCast S1x1x1
      (multiReduction .add [0] S1x1
        (shapeCast S4x1x1 (multiReduction .add [1, 2] S4 v 0x00000000#32 reduces_S4x64x64_S4 (.inl rfl) rfl) shapeCasts_S4_S4x1x1)
        0x00000000#32 reduces_S4x1x1_S1x1 (.inl rfl) rfl)
      shapeCasts_S1x1_S1x1x1)
    shapeCasts_S1x1x1_S1x1

def wHeat (o : Nat) (l : Nat) (hs : S4x51x64x64.Slices ![0, o, 0, 0] S4x1x64x64) (hw : S4x17.Slices ![0, l] S4x1)
    (v : Vec F S4x51x64x64 .f32) (v6 : FVec F S4x17 .f32) : FVec F S4x64x64 .f32 :=
  mulf (chanOf o hs v) (wOf l hw v6)

def sqVec (o : Nat) (l : Nat) (hs : S4x51x64x64.Slices ![0, o, 0, 0] S4x1x64x64) (hw : S4x17.Slices ![0, l] S4x1)
    (v3 v4 : Vec F S4x51x64x64 .f32) (v6 : FVec F S4x17 .f32) : FVec F S1x1 .f32 :=
  sum2 (mulf (subf (wHeat o l hs hw v3 v6) (wHeat o l hs hw v4 v6)) (subf (wHeat o l hs hw v3 v6) (wHeat o l hs hw v4 v6)))

def maskVec (hg : FVec F S4x64x64 .f32) : FVec F S4x64x64 .f32 :=
  sitofp .f32 (extui 32 (cmpf .one hg (broadcast S4x64x64 (Scalar.ofBits .f32 0x00000000#32))) natLt_1_32)

def lossVec (oxp oyp oxg oyg : FVec F S4x64x64 .f32) : FVec F S4x64x64 .f32 :=
  let x2p := addf (rowB (F := F)) oxp
  let y2p := addf (colB (F := F)) oyp
  let px1 := minimumf (rowB (F := F)) x2p
  let py1 := minimumf (colB (F := F)) y2p
  let px2 := maximumf (rowB (F := F)) x2p
  let py2 := maximumf (colB (F := F)) y2p
  let x2g := addf (rowB (F := F)) oxg
  let y2g := addf (colB (F := F)) oyg
  let gx1 := minimumf (rowB (F := F)) x2g
  let gy1 := minimumf (colB (F := F)) y2g
  let gx2 := maximumf (rowB (F := F)) x2g
  let gy2 := maximumf (colB (F := F)) y2g
  let zero := broadcast S4x64x64 (Scalar.ofBits (F := F) .f32 0x00000000#32)
  let eps := broadcast S4x64x64 (Scalar.ofBits (F := F) .f32 0x33D6BF95#32)
  let one := broadcast S4x64x64 (Scalar.ofBits (F := F) .f32 0x3F800000#32)
  let iw := maximumf (subf (minimumf px2 gx2) (maximumf px1 gx1)) zero
  let ih := maximumf (subf (minimumf py2 gy2) (maximumf py1 gy1)) zero
  let inter := mulf iw ih
  let union := addf (subf (addf (mulf (subf px2 px1) (subf py2 py1)) (mulf (subf gx2 gx1) (subf gy2 gy1))) inter) eps
  let areaC := addf (mulf (subf (maximumf px2 gx2) (minimumf px1 gx1)) (subf (maximumf py2 gy2) (minimumf py1 gy1))) eps
  subf one (subf (divf inter union) (divf (subf areaC union) areaC))

def numVec (o0 o1 o2 : Nat) (l : Nat) (hs0 : S4x51x64x64.Slices ![0, o0, 0, 0] S4x1x64x64)
    (hs1 : S4x51x64x64.Slices ![0, o1, 0, 0] S4x1x64x64) (hs2 : S4x51x64x64.Slices ![0, o2, 0, 0] S4x1x64x64)
    (hw : S4x17.Slices ![0, l] S4x1) (v3 v4 : Vec F S4x51x64x64 .f32) (v6 : FVec F S4x17 .f32) : FVec F S1x1 .f32 :=
  sum2 (mulf (lossVec (chanOf o1 hs1 v3) (chanOf o2 hs2 v3) (chanOf o1 hs1 v4) (chanOf o2 hs2 v4))
    (maskVec (wHeat o0 l hs0 hw v4 v6)))

def denVec (o0 : Nat) (l : Nat) (hs0 : S4x51x64x64.Slices ![0, o0, 0, 0] S4x1x64x64) (hw : S4x17.Slices ![0, l] S4x1)
    (v4 : Vec F S4x51x64x64 .f32) (v6 : FVec F S4x17 .f32) : FVec F S1x1 .f32 :=
  sum2 (maskVec (wHeat o0 l hs0 hw v4 v6))

def wBlock (v5 : Vec F S1x4x17 .f32) : FVec F S4x17 .f32 := shapeCast S4x17 v5 shapeCasts_S1x4x17_S4x17

def tileSq (x0 x1 : Vec Ideal S4x51x64x64 .f32) (x2 : Vec Ideal S1x4x17 .f32) (k : Fin 17) : EReal :=
  sqVec (F := Ideal) (3 * k.val) k.val (slicesChan _ (by have := k.isLt; omega)) (slicesCol _ k.isLt) x0 x1 (wBlock x2) (ix2 0 0)
def tileNum (x0 x1 : Vec Ideal S4x51x64x64 .f32) (x2 : Vec Ideal S1x4x17 .f32) (k : Fin 17) : EReal :=
  numVec (F := Ideal) (3 * k.val) (3 * k.val + 1) (3 * k.val + 2) k.val (slicesChan _ (by have := k.isLt; omega))
    (slicesChan _ (by have := k.isLt; omega)) (slicesChan _ (by have := k.isLt; omega)) (slicesCol _ k.isLt) x0 x1 (wBlock x2) (ix2 0 0)
def tileDen (x1 : Vec Ideal S4x51x64x64 .f32) (x2 : Vec Ideal S1x4x17 .f32) (k : Fin 17) : EReal :=
  denVec (F := Ideal) (3 * k.val) k.val (slicesChan _ (by have := k.isLt; omega)) (slicesCol _ k.isLt) x1 (wBlock x2) (ix2 0 0)

def lane (k : Fin 17) : S8x128.Idx := ix2 0 ⟨k.val, by have := k.isLt; omega⟩

def finalOf (s n d : Fin 17 → EReal) : EReal :=
  Ideal.div (∑ k : Fin 17, jointTerm (s k) (n k) (d k)) jointsC * oneC

theorem total_eq_finalOf (X Y : SX.Idx → EReal) (W : SW.Idx → EReal) :
    total X Y W = finalOf (sumSq X Y W) (sumNum X Y W) (sumDen Y W) := rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem drop_ix3 (bb : Fin 4) (r c : Fin 64) : reduces_S4x64x64_S4.drop (ix3 bb r c) = ix1 bb := by
  funext a
  match a with
  | ⟨0, _⟩ => rfl

theorem inner_sum (v : FVec Ideal S4x64x64 .f32) (bb : Fin 4) :
    multiReduction .add [1, 2] S4 v 0x00000000#32 reduces_S4x64x64_S4 (.inl rfl) rfl (ix1 bb)
      = ∑ r : Fin 64, ∑ c : Fin 64, v (ix3 bb r c) := by
  show ∑ i ∈ Finset.univ.filter (fun i => reduces_S4x64x64_S4.drop i = ix1 bb), v i = _
  rw [Finset.sum_filter, sum_idx3]
  simp only [drop_ix3]
  have hinj : ∀ a : Fin 4, (ix1 a = ix1 bb) ↔ a = bb := fun a =>
    ⟨fun h => congrFun h (0 : Fin 1), fun h => by rw [h]⟩
  simp only [hinj]
  rw [Finset.sum_eq_single bb]
  · simp only [if_true]
  · intro a _ hne
    simp only [if_neg hne, Finset.sum_const_zero]
  · intro h; exact absurd (Finset.mem_univ bb) h

/-- Summing each row's pixels and then the four rows is the triple sum. -/
theorem sum2_apply (v : FVec Ideal S4x64x64 .f32) :
    sum2 v (ix2 0 0) = ∑ bb : Fin 4, ∑ r : Fin 64, ∑ c : Fin 64, v (ix3 bb r c) := by
  unfold sum2
  rw [shapeCast_shapeCast]
  refine (Ideal.multiReduction_add_single (s := S4x1x1) (t := S1x1) (a := 0) _ _ reduces_S4x1x1_S1x1 _ _ (ix2 0 0)).trans ?_
  show ∑ bb : Fin 4, _ = _
  refine Finset.sum_congr rfl fun bb _ => ?_
  refine (shapeCast_apply _ shapeCasts_S4_S4x1x1 _ (ix1 bb) ?_).trans (inner_sum v bb)
  rw [Shape.rowMajor_val_three, Shape.rowMajor_val_one]
  show bb.val = (bb.val * 1 + 0) * 1 + 0
  omega

theorem chanOf_apply (o : Nat) (hs : S4x51x64x64.Slices ![0, o, 0, 0] S4x1x64x64) (ho : o < 51)
    (v : Vec Ideal S4x51x64x64 .f32) (bb : Fin 4) (r c : Fin 64) :
    chanOf o hs v (ix3 bb r c) = v (ix4 bb (⟨o, ho⟩ : Fin 51) r c) := by
  unfold chanOf
  refine (shapeCast_apply _ shapeCasts_S4x1x64x64_S4x64x64 _ (ix4 bb (0 : Fin 1) r c) ?_).trans ?_
  · rw [Shape.rowMajor_val_four, Shape.rowMajor_val_three]
    show ((bb.val * 1 + 0) * 64 + r.val) * 64 + c.val = (bb.val * 64 + r.val) * 64 + c.val
    omega
  · exact slice4_axis1_apply o v hs bb (0 : Fin 1) r c ⟨o, ho⟩ rfl

theorem wBlock_apply (x2 : Vec Ideal S1x4x17 .f32) (bb : Fin 4) (l : Fin 17) :
    wBlock x2 (ix2 bb l) = x2 (ix3 0 bb l) := by
  unfold wBlock
  exact shapeCast_1ab_ab_apply x2 shapeCasts_S1x4x17_S4x17 bb l

theorem wOf_apply (l : Nat) (hw : S4x17.Slices ![0, l] S4x1) (hl : l < 17) (v6 : FVec Ideal S4x17 .f32)
    (bb : Fin 4) (r c : Fin 64) :
    wOf l hw v6 (ix3 bb r c) = v6 (ix2 bb (⟨l, hl⟩ : Fin 17)) := by
  unfold wOf colOf
  refine (broadcastTo_apply _ broadcasts_S4x1x1_S4x64x64 _ (ix3 bb (0 : Fin 1) (0 : Fin 1)) ?_).trans ?_
  · intro a
    match a with
    | ⟨0, _⟩ => rfl
    | ⟨1, _⟩ => rfl
    | ⟨2, _⟩ => rfl
  refine (shapeCast_apply _ shapeCasts_S4x1_S4x1x1 _ (ix2 bb (0 : Fin 1)) ?_).trans ?_
  · rw [Shape.rowMajor_val_three, Shape.rowMajor_val_two]
    show bb.val * 1 + 0 = (bb.val * 1 + 0) * 1 + 0
    omega
  · exact slice2_axis1_apply l v6 hw bb (0 : Fin 1) ⟨l, hl⟩ rfl

theorem rowB_apply (bb : Fin 4) (r c : Fin 64) : rowB (F := Ideal) (ix3 bb r c) = coord r.val := by
  unfold rowB rowF
  refine (broadcastTo_apply _ broadcasts_S1x64x64_S4x64x64 _ (ix3 (0 : Fin 1) r c) ?_).trans ?_
  · intro a
    match a with
    | ⟨0, _⟩ => rfl
    | ⟨1, _⟩ => rfl
    | ⟨2, _⟩ => rfl
  refine (shapeCast_ab_1ab_apply _ shapeCasts_S64x64_S1x64x64 (0 : Fin 1) r c).trans ?_
  rw [sitofp_apply, iota_single_apply]
  rfl

theorem colB_apply (bb : Fin 4) (r c : Fin 64) : colB (F := Ideal) (ix3 bb r c) = coord c.val := by
  unfold colB colF
  refine (broadcastTo_apply _ broadcasts_S1x64x64_S4x64x64 _ (ix3 (0 : Fin 1) r c) ?_).trans ?_
  · intro a
    match a with
    | ⟨0, _⟩ => rfl
    | ⟨1, _⟩ => rfl
    | ⟨2, _⟩ => rfl
  refine (shapeCast_ab_1ab_apply _ shapeCasts_S64x64_S1x64x64 (0 : Fin 1) r c).trans ?_
  rw [sitofp_apply, iota_single_apply]
  rfl

theorem bit_toInt (b : BitVec 1) : (((b.setWidth 32).toInt : ℝ) : EReal) = ((b.toNat : ℝ) : EReal) := by
  rcases BitVec.eq_zero_or_eq_one b with h | h <;> subst h <;> norm_num

theorem maskVec_apply (hg : FVec Ideal S4x64x64 .f32) (i : S4x64x64.Idx) :
    maskVec hg i = (((Ideal.cmp .one (hg i) zeroC).toNat : ℝ) : EReal) :=
  bit_toInt _

theorem wHeat_apply (o l : Nat) (hs : S4x51x64x64.Slices ![0, o, 0, 0] S4x1x64x64) (hw : S4x17.Slices ![0, l] S4x1)
    (ho : o < 51) (hl : l < 17) (v : Vec Ideal S4x51x64x64 .f32) (v6 : FVec Ideal S4x17 .f32) (bb : Fin 4) (r c : Fin 64) :
    wHeat o l hs hw v v6 (ix3 bb r c) = v (ix4 bb (⟨o, ho⟩ : Fin 51) r c) * v6 (ix2 bb (⟨l, hl⟩ : Fin 17)) := by
  unfold wHeat
  rw [mulf_apply, chanOf_apply o hs ho, wOf_apply l hw hl]

theorem lossVec_apply (oxp oyp oxg oyg : FVec Ideal S4x64x64 .f32) (bb : Fin 4) (r c : Fin 64) :
    lossVec oxp oyp oxg oyg (ix3 bb r c)
      = lossCell (coord r.val) (coord c.val) (oxp (ix3 bb r c)) (oyp (ix3 bb r c)) (oxg (ix3 bb r c)) (oyg (ix3 bb r c)) := by
  rw [← rowB_apply bb r c, ← colB_apply bb r c]
  rfl

theorem chan_zero (k : Fin 17) (h : 3 * k.val < 51) : (⟨3 * k.val, h⟩ : Fin 51) = chan k 0 := Fin.ext rfl
theorem chan_one (k : Fin 17) (h : 3 * k.val + 1 < 51) : (⟨3 * k.val + 1, h⟩ : Fin 51) = chan k 1 := Fin.ext rfl
theorem chan_two (k : Fin 17) (h : 3 * k.val + 2 < 51) : (⟨3 * k.val + 2, h⟩ : Fin 51) = chan k 2 := Fin.ext rfl

/-- Joint k's term of a tile is the sum of its pixel cells over the tile's four batch rows. -/
theorem tileSq_eq (x0 x1 : Vec Ideal S4x51x64x64 .f32) (x2 : Vec Ideal S1x4x17 .f32) (k : Fin 17) :
    tileSq x0 x1 x2 k = ∑ bb : Fin 4, ∑ r : Fin 64, ∑ c : Fin 64,
      sqCell (x0 (ix4 bb (chan k 0) r c)) (x1 (ix4 bb (chan k 0) r c)) (x2 (ix3 0 bb k)) := by
  unfold tileSq sqVec
  rw [sum2_apply]
  refine Finset.sum_congr rfl fun bb _ => Finset.sum_congr rfl fun r _ => Finset.sum_congr rfl fun c _ => ?_
  have hk : 3 * k.val < 51 := by have := k.isLt; omega
  rw [mulf_apply, subf_apply, wHeat_apply _ _ _ _ hk k.isLt, wHeat_apply _ _ _ _ hk k.isLt, chan_zero k hk,
    wBlock_apply]
  rfl

theorem tileDen_eq (x1 : Vec Ideal S4x51x64x64 .f32) (x2 : Vec Ideal S1x4x17 .f32) (k : Fin 17) :
    tileDen x1 x2 k = ∑ bb : Fin 4, ∑ r : Fin 64, ∑ c : Fin 64,
      maskCell (x1 (ix4 bb (chan k 0) r c)) (x2 (ix3 0 bb k)) := by
  unfold tileDen denVec
  rw [sum2_apply]
  refine Finset.sum_congr rfl fun bb _ => Finset.sum_congr rfl fun r _ => Finset.sum_congr rfl fun c _ => ?_
  have hk : 3 * k.val < 51 := by have := k.isLt; omega
  rw [maskVec_apply, wHeat_apply _ _ _ _ hk k.isLt, chan_zero k hk, wBlock_apply]
  rfl

theorem tileNum_eq (x0 x1 : Vec Ideal S4x51x64x64 .f32) (x2 : Vec Ideal S1x4x17 .f32) (k : Fin 17) :
    tileNum x0 x1 x2 k = ∑ bb : Fin 4, ∑ r : Fin 64, ∑ c : Fin 64,
      lossCell (coord r.val) (coord c.val) (x0 (ix4 bb (chan k 1) r c)) (x0 (ix4 bb (chan k 2) r c))
          (x1 (ix4 bb (chan k 1) r c)) (x1 (ix4 bb (chan k 2) r c))
        * maskCell (x1 (ix4 bb (chan k 0) r c)) (x2 (ix3 0 bb k)) := by
  unfold tileNum numVec
  rw [sum2_apply]
  refine Finset.sum_congr rfl fun bb _ => Finset.sum_congr rfl fun r _ => Finset.sum_congr rfl fun c _ => ?_
  have hk : 3 * k.val < 51 := by have := k.isLt; omega
  have hk1 : 3 * k.val + 1 < 51 := by have := k.isLt; omega
  have hk2 : 3 * k.val + 2 < 51 := by have := k.isLt; omega
  rw [mulf_apply, lossVec_apply, maskVec_apply, wHeat_apply _ _ _ _ hk k.isLt, chan_zero k hk, wBlock_apply,
    chanOf_apply _ _ hk1, chanOf_apply _ _ hk2, chanOf_apply _ _ hk1, chanOf_apply _ _ hk2, chan_one k hk1, chan_two k hk2]
  rfl

end Cert.KernelIdeal.Tile

end
-- ==== Proof.SumLaws.lean ====
import proofs.«405258_j67929202754306_4_alg».proof.Proof.Loss
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Mathlib.Algebra.BigOperators.Fin
import Idealize.ShloMosaic.Lib.ValueIdxRank1
import Mathlib.Logic.Equiv.Fin.Basic

noncomputable section

open Idealize.ShloMosaic Idealize.ShloMosaic.ValueIdx

namespace Cert.SumLaws

open Cert.Loss

theorem drop_eq_iff (h : (⟨3, ![64, 17, 4096]⟩ : Shape).ReducesTo [0, 2] ⟨1, ![17]⟩)
    (i : (⟨3, ![64, 17, 4096]⟩ : Shape).Idx) (k : Fin 17) : h.drop i = ix1 k ↔ i 1 = k := by
  have hv : (h.drop i 0 : Nat) = i 1 := h.drop_apply_val_of_eq i 0 1
  constructor
  · intro e
    apply Fin.ext
    rw [← hv, e]
  · intro e
    rw [eq_ix1 (h.drop i)]
    exact congrArg (ix1 (n := 17)) (Fin.ext (hv.trans (congrArg Fin.val e)))

theorem hostReduce_batch_pixels (h : (⟨3, ![64, 17, 4096]⟩ : Shape).ReducesTo [0, 2] ⟨1, ![17]⟩)
    (x : (⟨3, ![64, 17, 4096]⟩ : Shape).Idx → EReal) (init : EReal) (k : Fin 17) :
    Ideal.hostReduceAdd h x init (ix1 k) = init + ∑ b : Fin 64, ∑ p : Fin 4096, x (ix3 b k p) := by
  unfold Ideal.hostReduceAdd
  congr 1
  rw [← Fintype.sum_prod_type' (f := fun (b : Fin 64) (p : Fin 4096) => x (ix3 b k p))]
  symm
  refine Finset.sum_bij (fun (bp : Fin 64 × Fin 4096) _ => (ix3 bp.1 k bp.2 : (⟨3, ![64, 17, 4096]⟩ : Shape).Idx)) ?_ ?_ ?_ ?_
  · intro bp _
    rw [Finset.mem_filter]
    exact ⟨Finset.mem_univ _, (drop_eq_iff h _ k).2 rfl⟩
  · intro a _ b _ e
    have e0 := congrFun e 0
    have e2 := congrFun e 2
    exact Prod.ext e0 e2
  · intro i hi
    rw [Finset.mem_filter] at hi
    have hk := (drop_eq_iff h i k).1 hi.2
    refine ⟨(i 0, i 2), Finset.mem_univ _, ?_⟩
    subst hk
    exact (eq_ix3 i).symm
  · intro bp _
    rfl

theorem hostReduce_joints (h : (⟨1, ![17]⟩ : Shape).ReducesTo [0] ⟨0, ![]⟩) (x : (⟨1, ![17]⟩ : Shape).Idx → EReal)
    (init : EReal) : Ideal.hostReduceAdd h x init ix0 = init + ∑ k : Fin 17, x (ix1 k) := by
  rw [Ideal.hostReduceAdd_total h (fun b => b.elim0)]
  congr 1
  exact (Equiv.sum_comp (idxEquiv1 (n := 17)).symm x).symm

def idxEquiv11 : (⟨3, ![1, 1, 17]⟩ : Shape).Idx ≃ Fin 17 where
  toFun i := i 2
  invFun k := ix3 0 0 k
  left_inv i := by
    funext d
    match d with
    | ⟨0, _⟩ => exact Subsingleton.elim (α := Fin 1) _ _
    | ⟨1, _⟩ => exact Subsingleton.elim (α := Fin 1) _ _
    | ⟨2, _⟩ => rfl
  right_inv _ := rfl

theorem reduce_joints (h : (⟨3, ![1, 1, 17]⟩ : Shape).Reduces [1, 2] ⟨1, ![1]⟩)
    (x : (⟨3, ![1, 1, 17]⟩ : Shape).Idx → EReal) :
    Ideal.reduceAdd h x (ix1 0) = ∑ k : Fin 17, x (ix3 0 0 k) := by
  rw [Ideal.reduceAdd_total h (fun b => by match b with | ⟨0, _⟩ => rfl)]
  exact (Equiv.sum_comp idxEquiv11.symm x).symm

/-- Sixteen tiles of four rows are the 64 batch entries. -/
theorem sum_tiles (f : Fin 64 → EReal) :
    ∑ t : Fin 16, ∑ bb : Fin 4, f ⟨4 * t.val + bb.val, by have := t.isLt; have := bb.isLt; omega⟩ = ∑ b : Fin 64, f b := by
  rw [← Equiv.sum_comp (finProdFinEquiv : Fin 16 × Fin 4 ≃ Fin 64) f, Fintype.sum_prod_type]
  refine Finset.sum_congr rfl fun t _ => Finset.sum_congr rfl fun bb _ => congrArg f (Fin.ext ?_)
  show 4 * t.val + bb.val = bb.val + 4 * t.val
  omega

/-- A flattened pixel p is row p / 64, column p % 64. -/
theorem sum_pixels (f : Fin 4096 → EReal) :
    ∑ p : Fin 4096, f p = ∑ r : Fin 64, ∑ c : Fin 64, f ⟨64 * r.val + c.val, by have := r.isLt; have := c.isLt; omega⟩ := by
  rw [← Equiv.sum_comp (finProdFinEquiv : Fin 64 × Fin 64 ≃ Fin 4096) f, Fintype.sum_prod_type]
  refine Finset.sum_congr rfl fun r _ => Finset.sum_congr rfl fun c _ => congrArg f (Fin.ext ?_)
  show c.val + 64 * r.val = 64 * r.val + c.val
  omega

theorem zeroC_eq : zeroC = 0 := Ideal.ofBits_zero_f32

theorem countC_eq : countC = ((262144 : ℝ) : EReal) := by
  simp [Ideal.ofBits, Ideal.ieee]
  rw [← EReal.coe_mul]
  norm_num

/-- The reference halves the quotient, the kernel the sum: the same number; the zero word adds nothing. -/
theorem jointTerm_ref (s n d : EReal) :
    halfC * Ideal.div (zeroC + s) countC + Ideal.div (zeroC + n) (max (zeroC + d) oneC) = jointTerm s n d := by
  unfold jointTerm
  rw [zeroC_eq, zero_add, zero_add, zero_add, countC_eq,
    Ideal.div_coe (by norm_num : (262144 : ℝ) ≠ 0), Ideal.div_coe (by norm_num : (262144 : ℝ) ≠ 0), mul_assoc]

end Cert.SumLaws

end
-- ==== Proof.Filled.lean ====
import proofs.«405258_j67929202754306_4_alg».proof.Proof.Gen.KernelIdeal
import proofs.«405258_j67929202754306_4_alg».proof.Proof.Tile
import Idealize.ShloMosaic.Lib.Pipeline.Value
import Idealize.ShloMosaic.Lib.WritesUnit
import Idealize.ShloMosaic.Lib.ValueIdx

noncomputable section
open Idealize.ShloMosaic Idealize.ShloMosaic.ValueIdx
namespace Cert.KernelIdeal.Filled
open Cert.KernelIdeal Cert.KernelIdeal.Tile Cert.Loss

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable {κ : Kind} {sp : Space} (v : View sig κ sp S8x128 .f32)

/-- Through the stores L, over any earlier contents: each lane below j holds zero plus its joint's term t, and every element of
    column j or further right still holds zero. -/
def Filled (L : List (View.Piece (Elt Ideal) S8x128 .f32)) (j : ℕ) (t : Fin 17 → EReal) : Prop :=
  ∀ f : v.ty.Contents (Elt Ideal),
    (∀ y : S8x128.Idx, j ≤ (y 1).val → v.read (Elt Ideal) (v.writes (Elt Ideal) f L) y = zeroC)
    ∧ ∀ k : Fin 17, k.val < j → v.read (Elt Ideal) (v.writes (Elt Ideal) f L) (lane k) = zeroC + t k

/-- A store of zeros over the whole array fills no lane yet. -/
theorem base (inb : ∀ a, (![0, 0] : Fin 2 → ℕ) a + S8x128.size a ≤ S8x128.size a)
    (w : (Rect.unit (s := S8x128) ![0, 0] S8x128.size inb).shape.Idx → Elt Ideal .f32) (hw : ∀ y, w y = zeroC) (t : Fin 17 → EReal) :
    Filled v [⟨Rect.unit ![0, 0] S8x128.size inb, w⟩] 0 t := fun f =>
  ⟨fun y _ => (View.read_writes_cons_unit_of_mem v f inb w [] y y hz2 (fun a => (Nat.zero_add _).symm)).trans (hw y),
    fun k hk => absurd hk (Nat.not_lt_zero _)⟩

variable {v} {L : List (View.Piece (Elt Ideal) S8x128 .f32)} {j : ℕ} {t : Fin 17 → EReal}

/-- One more store, into the cell of lane j, of zero plus joint j's term: lane j is filled, lanes below are not touched,
    and to its right all is still zero. -/
theorem step (h : Filled v L j t) (hj : j < 17) (inb : ∀ a, (![0, j] : Fin 2 → ℕ) a + S1x1.size a ≤ S8x128.size a)
    (w : (Rect.unit (s := S8x128) ![0, j] S1x1.size inb).shape.Idx → Elt Ideal .f32) (hw : w (ix2 0 0) = zeroC + t ⟨j, hj⟩) :
    Filled v (⟨Rect.unit ![0, j] S1x1.size inb, w⟩ :: L) (j + 1) t := fun f => by
  obtain ⟨hz, hl⟩ := h f
  refine ⟨fun y hy => ?_, fun k hk => ?_⟩
  · rw [View.read_writes_cons_unit_of_not_mem _ _ _ _ _ _ rfl 1 (Or.inr (by show j + 1 ≤ (y 1).val; exact hy))]
    exact hz y (by omega)
  · rcases Nat.lt_or_ge k.val j with h' | h'
    · rw [View.read_writes_cons_unit_of_not_mem _ _ _ _ _ _ rfl 1 (Or.inl (by show k.val < j; exact h'))]
      exact hl k h'
    · obtain rfl : k = ⟨j, hj⟩ := Fin.ext (by show k.val = j; omega)
      rw [View.read_writes_cons_unit_of_mem _ _ _ _ _ _ (ix2 0 0) rfl (fun a => by match a with | ⟨0, _⟩ => rfl | ⟨1, _⟩ => rfl)]
      exact hw

/-- What joint j reads in its lane before it stores: zero. -/
theorem old (h : Filled v L j t) (inb : ∀ a, (![0, j] : Fin 2 → ℕ) a + S1x1.size a ≤ S8x128.size a) :
    v.readCov L (Rect.unit (s := S8x128) ![0, j] S1x1.size inb).toLoadRect = fun _ => zeroC :=
  funext fun _ => (h v.junk).1 _ (Nat.le_add_right j _)

/-- With all seventeen lanes filled, lane k holds zero plus joint k's term. -/
theorem lane_eq (h : Filled v L 17 t) (f : v.ty.Contents (Elt Ideal)) (k : Fin 17) :
    v.read (Elt Ideal) (v.writes (Elt Ideal) f L) (lane k) = zeroC + t k := (h f).2 k k.isLt

end Cert.KernelIdeal.Filled
end
-- ==== Proof.LanesAFill.lean ====
import proofs.«405258_j67929202754306_4_alg».proof.Proof.Gen.KernelIdeal.Frame
import proofs.«405258_j67929202754306_4_alg».proof.Proof.Tile
import proofs.«405258_j67929202754306_4_alg».proof.Proof.Filled
import Idealize.ShloMosaic.Lib.Tactic

set_option maxRecDepth 16384

noncomputable section
open Idealize.ShloMosaic Idealize.ShloMosaic.TcCoe Idealize.SL.Sem
open Idealize.ShloMosaic.ValueIdx
namespace Cert.KernelIdeal.LanesA
open Cert.KernelIdeal Cert.KernelIdeal.Gen Cert.KernelIdeal.Tile Cert.KernelIdeal.Filled Cert.KernelIdeal.Gen.kernelRun0_A.sl

variable {κ : Kind} {sp : Space} (v : View sig κ sp S8x128 .f32) (c : Dev nD)
  (arg1 : Memref sig .tc .vmem S4x51x64x64 .f32) (harg1 : arg1.IsWhole) (arg2 : Memref sig .tc .vmem S4x51x64x64 .f32) (harg2 : arg2.IsWhole)
  (arg3 : Memref sig .tc .vmem S1x4x17 .f32) (harg3 : arg3.IsWhole)
  (arg5 arg6 arg7 : Memref sig .tc .vmem S8x128 .f32) (x0 x1 : Vec Ideal S4x51x64x64 .f32) (x2 : Vec Ideal S1x4x17 .f32)

theorem filled0_1 : Filled v (HS0_1 (F := Ideal)) 0 (tileSq x0 x1 x2) :=
  base v _ _ (fun _ => rfl) _

theorem filled0_2 : Filled v (HS0_2 c arg1 harg1 arg2 harg2 arg3 harg3 arg5 x0 x1 x2) 1 (tileSq x0 x1 x2) :=
  step (filled0_1 v x0 x1 x2) (by decide) _ _ (by
    unfold k0_pay31 v123
    rw [old (filled0_1 arg5.view x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_3 : Filled v (HS0_3 c arg1 harg1 arg2 harg2 arg3 harg3 arg5 x0 x1 x2) 2 (tileSq x0 x1 x2) :=
  step (filled0_2 v c arg1 harg1 arg2 harg2 arg3 harg3 arg5 x0 x1 x2) (by decide) _ _ (by
    unfold k0_pay51 v250
    rw [old (filled0_2 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_4 : Filled v (HS0_4 c arg1 harg1 arg2 harg2 arg3 harg3 arg5 x0 x1 x2) 3 (tileSq x0 x1 x2) :=
  step (filled0_3 v c arg1 harg1 arg2 harg2 arg3 harg3 arg5 x0 x1 x2) (by decide) _ _ (by
    unfold k0_pay79 v377
    rw [old (filled0_3 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_5 : Filled v (HS0_5 c arg1 harg1 arg2 harg2 arg3 harg3 arg5 x0 x1 x2) 4 (tileSq x0 x1 x2) :=
  step (filled0_4 v c arg1 harg1 arg2 harg2 arg3 harg3 arg5 x0 x1 x2) (by decide) _ _ (by
    unfold k0_pay96 v504
    rw [old (filled0_4 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_6 : Filled v (HS0_6 c arg1 harg1 arg2 harg2 arg3 harg3 arg5 x0 x1 x2) 5 (tileSq x0 x1 x2) :=
  step (filled0_5 v c arg1 harg1 arg2 harg2 arg3 harg3 arg5 x0 x1 x2) (by decide) _ _ (by
    unfold k0_pay124 v631
    rw [old (filled0_5 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_7 : Filled v (HS0_7 c arg1 harg1 arg2 harg2 arg3 harg3 arg5 x0 x1 x2) 6 (tileSq x0 x1 x2) :=
  step (filled0_6 v c arg1 harg1 arg2 harg2 arg3 harg3 arg5 x0 x1 x2) (by decide) _ _ (by
    unfold k0_pay141 v758
    rw [old (filled0_6 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_8 : Filled v (HS0_8 c arg1 harg1 arg2 harg2 arg3 harg3 arg5 x0 x1 x2) 7 (tileSq x0 x1 x2) :=
  step (filled0_7 v c arg1 harg1 arg2 harg2 arg3 harg3 arg5 x0 x1 x2) (by decide) _ _ (by
    unfold k0_pay170 r_102 v885
    rw [old (filled0_7 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_9 : Filled v (HS0_9 c arg1 harg1 arg2 harg2 arg3 harg3 arg5 x0 x1 x2) 8 (tileSq x0 x1 x2) :=
  step (filled0_8 v c arg1 harg1 arg2 harg2 arg3 harg3 arg5 x0 x1 x2) (by decide) _ _ (by
    unfold k0_pay195 v1012
    rw [old (filled0_8 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_10 : Filled v (HS0_10 c arg1 harg1 arg2 harg2 arg3 harg3 arg5 x0 x1 x2) 9 (tileSq x0 x1 x2) :=
  step (filled0_9 v c arg1 harg1 arg2 harg2 arg3 harg3 arg5 x0 x1 x2) (by decide) _ _ (by
    unfold k0_pay217 v1139
    rw [old (filled0_9 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_11 : Filled v (HS0_11 c arg1 harg1 arg2 harg2 arg3 harg3 arg5 x0 x1 x2) 10 (tileSq x0 x1 x2) :=
  step (filled0_10 v c arg1 harg1 arg2 harg2 arg3 harg3 arg5 x0 x1 x2) (by decide) _ _ (by
    unfold k0_pay244 v1266
    rw [old (filled0_10 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_12 : Filled v (HS0_12 c arg1 harg1 arg2 harg2 arg3 harg3 arg5 x0 x1 x2) 11 (tileSq x0 x1 x2) :=
  step (filled0_11 v c arg1 harg1 arg2 harg2 arg3 harg3 arg5 x0 x1 x2) (by decide) _ _ (by
    unfold k0_pay262 v1393
    rw [old (filled0_11 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_13 : Filled v (HS0_13 c arg1 harg1 arg2 harg2 arg3 harg3 arg5 x0 x1 x2) 12 (tileSq x0 x1 x2) :=
  step (filled0_12 v c arg1 harg1 arg2 harg2 arg3 harg3 arg5 x0 x1 x2) (by decide) _ _ (by
    unfold k0_pay290 v1520
    rw [old (filled0_12 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_14 : Filled v (HS0_14 c arg1 harg1 arg2 harg2 arg3 harg3 arg5 x0 x1 x2) 13 (tileSq x0 x1 x2) :=
  step (filled0_13 v c arg1 harg1 arg2 harg2 arg3 harg3 arg5 x0 x1 x2) (by decide) _ _ (by
    unfold k0_pay309 v1647
    rw [old (filled0_13 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_15 : Filled v (HS0_15 c arg1 harg1 arg2 harg2 arg3 harg3 arg5 x0 x1 x2) 14 (tileSq x0 x1 x2) :=
  step (filled0_14 v c arg1 harg1 arg2 harg2 arg3 harg3 arg5 x0 x1 x2) (by decide) _ _ (by
    unfold k0_pay339 r_205 v1774
    rw [old (filled0_14 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_16 : Filled v (HS0_16 c arg1 harg1 arg2 harg2 arg3 harg3 arg5 x0 x1 x2) 15 (tileSq x0 x1 x2) :=
  step (filled0_15 v c arg1 harg1 arg2 harg2 arg3 harg3 arg5 x0 x1 x2) (by decide) _ _ (by
    unfold k0_pay365 v1901
    rw [old (filled0_15 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled0_17 : Filled v (HS0_17 c arg1 harg1 arg2 harg2 arg3 harg3 arg5 x0 x1 x2) 16 (tileSq x0 x1 x2) :=
  step (filled0_16 v c arg1 harg1 arg2 harg2 arg3 harg3 arg5 x0 x1 x2) (by decide) _ _ (by
    unfold k0_pay389 v2028
    rw [old (filled0_16 arg5.view c arg1 harg1 arg2 harg2 arg3 harg3 arg5 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_1 : Filled v (HS1_1 (F := Ideal)) 0 (tileNum x0 x1 x2) :=
  base v _ _ (fun _ => rfl) _

theorem filled1_2 : Filled v (HS1_2 c arg1 harg1 arg2 harg2 arg3 harg3 arg6 x0 x1 x2) 1 (tileNum x0 x1 x2) :=
  step (filled1_1 v x0 x1 x2) (by decide) _ _ (by
    unfold k0_pay32 v128
    rw [old (filled1_1 arg6.view x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_3 : Filled v (HS1_3 c arg1 harg1 arg2 harg2 arg3 harg3 arg6 x0 x1 x2) 2 (tileNum x0 x1 x2) :=
  step (filled1_2 v c arg1 harg1 arg2 harg2 arg3 harg3 arg6 x0 x1 x2) (by decide) _ _ (by
    unfold k0_pay52 v255
    rw [old (filled1_2 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_4 : Filled v (HS1_4 c arg1 harg1 arg2 harg2 arg3 harg3 arg6 x0 x1 x2) 3 (tileNum x0 x1 x2) :=
  step (filled1_3 v c arg1 harg1 arg2 harg2 arg3 harg3 arg6 x0 x1 x2) (by decide) _ _ (by
    unfold k0_pay80 v382
    rw [old (filled1_3 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_5 : Filled v (HS1_5 c arg1 harg1 arg2 harg2 arg3 harg3 arg6 x0 x1 x2) 4 (tileNum x0 x1 x2) :=
  step (filled1_4 v c arg1 harg1 arg2 harg2 arg3 harg3 arg6 x0 x1 x2) (by decide) _ _ (by
    unfold k0_pay97 v509
    rw [old (filled1_4 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_6 : Filled v (HS1_6 c arg1 harg1 arg2 harg2 arg3 harg3 arg6 x0 x1 x2) 5 (tileNum x0 x1 x2) :=
  step (filled1_5 v c arg1 harg1 arg2 harg2 arg3 harg3 arg6 x0 x1 x2) (by decide) _ _ (by
    unfold k0_pay126 r_72 v636
    rw [old (filled1_5 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_7 : Filled v (HS1_7 c arg1 harg1 arg2 harg2 arg3 harg3 arg6 x0 x1 x2) 6 (tileNum x0 x1 x2) :=
  step (filled1_6 v c arg1 harg1 arg2 harg2 arg3 harg3 arg6 x0 x1 x2) (by decide) _ _ (by
    unfold k0_pay142 v763
    rw [old (filled1_6 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_8 : Filled v (HS1_8 c arg1 harg1 arg2 harg2 arg3 harg3 arg6 x0 x1 x2) 7 (tileNum x0 x1 x2) :=
  step (filled1_7 v c arg1 harg1 arg2 harg2 arg3 harg3 arg6 x0 x1 x2) (by decide) _ _ (by
    unfold k0_pay171 v890
    rw [old (filled1_7 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_9 : Filled v (HS1_9 c arg1 harg1 arg2 harg2 arg3 harg3 arg6 x0 x1 x2) 8 (tileNum x0 x1 x2) :=
  step (filled1_8 v c arg1 harg1 arg2 harg2 arg3 harg3 arg6 x0 x1 x2) (by decide) _ _ (by
    unfold k0_pay196 v1017
    rw [old (filled1_8 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_10 : Filled v (HS1_10 c arg1 harg1 arg2 harg2 arg3 harg3 arg6 x0 x1 x2) 9 (tileNum x0 x1 x2) :=
  step (filled1_9 v c arg1 harg1 arg2 harg2 arg3 harg3 arg6 x0 x1 x2) (by decide) _ _ (by
    unfold k0_pay218 v1144
    rw [old (filled1_9 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_11 : Filled v (HS1_11 c arg1 harg1 arg2 harg2 arg3 harg3 arg6 x0 x1 x2) 10 (tileNum x0 x1 x2) :=
  step (filled1_10 v c arg1 harg1 arg2 harg2 arg3 harg3 arg6 x0 x1 x2) (by decide) _ _ (by
    unfold k0_pay245 v1271
    rw [old (filled1_10 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_12 : Filled v (HS1_12 c arg1 harg1 arg2 harg2 arg3 harg3 arg6 x0 x1 x2) 11 (tileNum x0 x1 x2) :=
  step (filled1_11 v c arg1 harg1 arg2 harg2 arg3 harg3 arg6 x0 x1 x2) (by decide) _ _ (by
    unfold k0_pay263 v1398
    rw [old (filled1_11 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_13 : Filled v (HS1_13 c arg1 harg1 arg2 harg2 arg3 harg3 arg6 x0 x1 x2) 12 (tileNum x0 x1 x2) :=
  step (filled1_12 v c arg1 harg1 arg2 harg2 arg3 harg3 arg6 x0 x1 x2) (by decide) _ _ (by
    unfold k0_pay292 r_174 v1525
    rw [old (filled1_12 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_14 : Filled v (HS1_14 c arg1 harg1 arg2 harg2 arg3 harg3 arg6 x0 x1 x2) 13 (tileNum x0 x1 x2) :=
  step (filled1_13 v c arg1 harg1 arg2 harg2 arg3 harg3 arg6 x0 x1 x2) (by decide) _ _ (by
    unfold k0_pay310 v1652
    rw [old (filled1_13 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_15 : Filled v (HS1_15 c arg1 harg1 arg2 harg2 arg3 harg3 arg6 x0 x1 x2) 14 (tileNum x0 x1 x2) :=
  step (filled1_14 v c arg1 harg1 arg2 harg2 arg3 harg3 arg6 x0 x1 x2) (by decide) _ _ (by
    unfold k0_pay340 v1779
    rw [old (filled1_14 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_16 : Filled v (HS1_16 c arg1 harg1 arg2 harg2 arg3 harg3 arg6 x0 x1 x2) 15 (tileNum x0 x1 x2) :=
  step (filled1_15 v c arg1 harg1 arg2 harg2 arg3 harg3 arg6 x0 x1 x2) (by decide) _ _ (by
    unfold k0_pay366 v1906
    rw [old (filled1_15 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled1_17 : Filled v (HS1_17 c arg1 harg1 arg2 harg2 arg3 harg3 arg6 x0 x1 x2) 16 (tileNum x0 x1 x2) :=
  step (filled1_16 v c arg1 harg1 arg2 harg2 arg3 harg3 arg6 x0 x1 x2) (by decide) _ _ (by
    unfold k0_pay390 v2033
    rw [old (filled1_16 arg6.view c arg1 harg1 arg2 harg2 arg3 harg3 arg6 x0 x1 x2)]
    sl_unfold_words
    simp only [View.readAt_eq_ld, Memref.IsWhole.read_unread, View.ld_unit_zero (S := S4x51x64x64) hz4, View.ld_unit_zero (S := S1x4x17) hz3, shapeCast_self]
    rfl)

theorem filled2_1 : Filled v (HS2_1 (F := Ideal)) 0 (tileDen x1 x2) :=
  base v _ _ (fun _ => rfl) _

theorem filled2_2 : Filled v (HS2_2 c arg2 harg2 arg3 harg3 arg7 x1 x2) 1 (tileDen x1 x2) :=
  step (filled2_1 v x1 x2) (by decide) _ _ (by
    unfold k0_pay33 v133
    rw [old (filled2_1 arg7.view x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_3 : Filled v (HS2_3 c arg2 harg2 arg3 harg3 arg7 x1 x2) 2 (tileDen x1 x2) :=
  step (filled2_2 v c arg2 harg2 arg3 harg3 arg7 x1 x2) (by decide) _ _ (by
    unfold k0_pay53 v260
    rw [old (filled2_2 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_4 : Filled v (HS2_4 c arg2 harg2 arg3 harg3 arg7 x1 x2) 3 (tileDen x1 x2) :=
  step (filled2_3 v c arg2 harg2 arg3 harg3 arg7 x1 x2) (by decide) _ _ (by
    unfold k0_pay81 v387
    rw [old (filled2_3 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_5 : Filled v (HS2_5 c arg2 harg2 arg3 harg3 arg7 x1 x2) 4 (tileDen x1 x2) :=
  step (filled2_4 v c arg2 harg2 arg3 harg3 arg7 x1 x2) (by decide) _ _ (by
    unfold k0_pay98 v514
    rw [old (filled2_4 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_6 : Filled v (HS2_6 c arg2 harg2 arg3 harg3 arg7 x1 x2) 5 (tileDen x1 x2) :=
  step (filled2_5 v c arg2 harg2 arg3 harg3 arg7 x1 x2) (by decide) _ _ (by
    unfold k0_pay127 v641
    rw [old (filled2_5 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_7 : Filled v (HS2_7 c arg2 harg2 arg3 harg3 arg7 x1 x2) 6 (tileDen x1 x2) :=
  step (filled2_6 v c arg2 harg2 arg3 harg3 arg7 x1 x2) (by decide) _ _ (by
    unfold k0_pay143 v768
    rw [old (filled2_6 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_8 : Filled v (HS2_8 c arg2 harg2 arg3 harg3 arg7 x1 x2) 7 (tileDen x1 x2) :=
  step (filled2_7 v c arg2 harg2 arg3 harg3 arg7 x1 x2) (by decide) _ _ (by
    unfold k0_pay172 v895
    rw [old (filled2_7 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_9 : Filled v (HS2_9 c arg2 harg2 arg3 harg3 arg7 x1 x2) 8 (tileDen x1 x2) :=
  step (filled2_8 v c arg2 harg2 arg3 harg3 arg7 x1 x2) (by decide) _ _ (by
    unfold k0_pay197 v1022
    rw [old (filled2_8 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_10 : Filled v (HS2_10 c arg2 harg2 arg3 harg3 arg7 x1 x2) 9 (tileDen x1 x2) :=
  step (filled2_9 v c arg2 harg2 arg3 harg3 arg7 x1 x2) (by decide) _ _ (by
    unfold k0_pay219 v1149
    rw [old (filled2_9 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_11 : Filled v (HS2_11 c arg2 harg2 arg3 harg3 arg7 x1 x2) 10 (tileDen x1 x2) :=
  step (filled2_10 v c arg2 harg2 arg3 harg3 arg7 x1 x2) (by decide) _ _ (by
    unfold k0_pay247 r_143 k0_pay246 v1276
    rw [old (filled2_10 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_12 : Filled v (HS2_12 c arg2 harg2 arg3 harg3 arg7 x1 x2) 11 (tileDen x1 x2) :=
  step (filled2_11 v c arg2 harg2 arg3 harg3 arg7 x1 x2) (by decide) _ _ (by
    unfold k0_pay264 v1403
    rw [old (filled2_11 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_13 : Filled v (HS2_13 c arg2 harg2 arg3 harg3 arg7 x1 x2) 12 (tileDen x1 x2) :=
  step (filled2_12 v c arg2 harg2 arg3 harg3 arg7 x1 x2) (by decide) _ _ (by
    unfold k0_pay293 v1530
    rw [old (filled2_12 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_14 : Filled v (HS2_14 c arg2 harg2 arg3 harg3 arg7 x1 x2) 13 (tileDen x1 x2) :=
  step (filled2_13 v c arg2 harg2 arg3 harg3 arg7 x1 x2) (by decide) _ _ (by
    unfold k0_pay311 v1657
    rw [old (filled2_13 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_15 : Filled v (HS2_15 c arg2 harg2 arg3 harg3 arg7 x1 x2) 14 (tileDen x1 x2) :=
  step (filled2_14 v c arg2 harg2 arg3 harg3 arg7 x1 x2) (by decide) _ _ (by
    unfold k0_pay341 v1784
    rw [old (filled2_14 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_16 : Filled v (HS2_16 c arg2 harg2 arg3 harg3 arg7 x1 x2) 15 (tileDen x1 x2) :=
  step (filled2_15 v c arg2 harg2 arg3 harg3 arg7 x1 x2) (by decide) _ _ (by
    unfold k0_pay367 v1911
    rw [old (filled2_15 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

theorem filled2_17 : Filled v (HS2_17 c arg2 harg2 arg3 harg3 arg7 x1 x2) 16 (tileDen x1 x2) :=
  step (filled2_16 v c arg2 harg2 arg3 harg3 arg7 x1 x2) (by decide) _ _ (by
    unfold k0_pay391 v2038
    rw [old (filled2_16 arg7.view c arg2 harg2 arg3 harg3 arg7 x1 x2)]
    sl_unfold_words
    simp only [View.readAt_eq_ld, Memref.IsWhole.read_unread, View.ld_unit_zero (S := S4x51x64x64) hz4, View.ld_unit_zero (S := S1x4x17) hz3, shapeCast_self]
    rw [addf_apply]
    exact congrArg₂ (· + ·) rfl rfl)

end Cert.KernelIdeal.LanesA
end
-- ==== Proof.LanesA.lean ====
import proofs.«405258_j67929202754306_4_alg».proof.Proof.LanesAFill

set_option maxRecDepth 16384

noncomputable section
open Idealize.ShloMosaic Idealize.ShloMosaic.TcCoe Idealize.SL.Sem
open Idealize.ShloMosaic.ValueIdx
namespace Cert.KernelIdeal.LanesA
open Cert.KernelIdeal Cert.KernelIdeal.Gen Cert.KernelIdeal.Tile Cert.KernelIdeal.Filled Cert.KernelIdeal.Gen.kernelRun0_A.sl

variable (k : Fin 17) (c : Dev nD) (i : grid0.Coords)
  (arg1 : Memref sig .tc .vmem S4x51x64x64 .f32) (harg1 : arg1.IsWhole) (arg2 : Memref sig .tc .vmem S4x51x64x64 .f32) (harg2 : arg2.IsWhole)
  (arg3 : Memref sig .tc .vmem S1x4x17 .f32) (harg3 : arg3.IsWhole) (arg4 : Memref sig .tc .vmem S1x1 .f32) (harg4 : arg4.IsWhole)
  (arg5 : Memref sig .tc .vmem S8x128 .f32) (harg5 : arg5.IsWhole) (arg6 : Memref sig .tc .vmem S8x128 .f32) (harg6 : arg6.IsWhole)
  (arg7 : Memref sig .tc .vmem S8x128 .f32) (harg7 : arg7.IsWhole) (hc0 : cond0_0 i) (hc1 : ¬cond0_1 i)
  (x0 x1 : Vec Ideal S4x51x64x64 .f32) (x2 : Vec Ideal S1x4x17 .f32)

/-- The first point's last store fills lane 16; with all seventeen filled, lane k holds zero plus joint k's term of the tile. -/
theorem sq_lane : sout0_A_0 c i arg1 harg1 arg2 harg2 arg3 harg3 arg4 harg4 arg5 harg5 arg6 harg6 arg7 harg7 hc0 hc1 x0 x1 x2 (lane k) = Cert.Loss.zeroC + tileSq x0 x1 x2 k := by
  unfold sout0_A_0 kernelRun0_A
  dsimp only
  refine lane_eq (step (filled0_17 _ c arg1 harg1 arg2 harg2 arg3 harg3 arg5 x0 x1 x2) (by decide) _ _ ?_) _ k
  unfold k0_pay414 v2155
  rw [old (filled0_17 arg5.view c arg1 harg1 arg2 harg2 arg3 harg3 arg5 x0 x1 x2)]
  sl_unfold_words
  simp only [View.readAt_eq_ld, Memref.IsWhole.read_unread, View.ld_unit_zero (S := S4x51x64x64) hz4, View.ld_unit_zero (S := S1x4x17) hz3, shapeCast_self]
  rfl

theorem num_lane : sout0_A_1 c i arg1 harg1 arg2 harg2 arg3 harg3 arg4 harg4 arg5 harg5 arg6 harg6 arg7 harg7 hc0 hc1 x0 x1 x2 (lane k) = Cert.Loss.zeroC + tileNum x0 x1 x2 k := by
  unfold sout0_A_1 kernelRun0_A
  dsimp only
  refine lane_eq (step (filled1_17 _ c arg1 harg1 arg2 harg2 arg3 harg3 arg6 x0 x1 x2) (by decide) _ _ ?_) _ k
  unfold k0_pay415 v2160
  rw [old (filled1_17 arg6.view c arg1 harg1 arg2 harg2 arg3 harg3 arg6 x0 x1 x2)]
  sl_unfold_words
  simp only [View.readAt_eq_ld, Memref.IsWhole.read_unread, View.ld_unit_zero (S := S4x51x64x64) hz4, View.ld_unit_zero (S := S1x4x17) hz3, shapeCast_self]
  rfl

theorem den_lane : sout0_A_2 c i arg1 harg1 arg2 harg2 arg3 harg3 arg4 harg4 arg5 harg5 arg6 harg6 arg7 harg7 hc0 hc1 x0 x1 x2 (lane k) = Cert.Loss.zeroC + tileDen x1 x2 k := by
  unfold sout0_A_2 kernelRun0_A
  dsimp only
  refine lane_eq (step (filled2_17 _ c arg2 harg2 arg3 harg3 arg7 x1 x2) (by decide) _ _ ?_) _ k
  unfold k0_pay1 r_245 k0_pay416 v2165
  rw [old (filled2_17 arg7.view c arg2 harg2 arg3 harg3 arg7 x1 x2)]
  sl_unfold_words
  simp only [View.readAt_eq_ld, Memref.IsWhole.read_unread, View.ld_unit_zero (S := S4x51x64x64) hz4, View.ld_unit_zero (S := S1x4x17) hz3, shapeCast_self]
  rw [addf_apply]
  exact congrArg₂ (· + ·) rfl rfl

end Cert.KernelIdeal.LanesA
end
-- ==== Proof.LanesB.lean ====
import proofs.«405258_j67929202754306_4_alg».proof.Proof.Gen.KernelIdeal.Frame
import proofs.«405258_j67929202754306_4_alg».proof.Proof.Tile
import proofs.«405258_j67929202754306_4_alg».proof.Proof.Filled
import Idealize.ShloMosaic.Lib.Tactic

set_option maxRecDepth 16384

noncomputable section
open Idealize.ShloMosaic Idealize.ShloMosaic.TcCoe Idealize.SL.Sem
open Idealize.ShloMosaic.ValueIdx
namespace Cert.KernelIdeal.LanesB
open Cert.KernelIdeal Cert.KernelIdeal.Gen Cert.KernelIdeal.Tile Cert.KernelIdeal.Filled

variable (k : Fin 17) (c : Dev nD) (i : grid0.Coords)
  (arg1 : Memref sig .tc .vmem S4x51x64x64 .f32) (harg1 : arg1.IsWhole) (arg2 : Memref sig .tc .vmem S4x51x64x64 .f32) (harg2 : arg2.IsWhole)
  (arg3 : Memref sig .tc .vmem S1x4x17 .f32) (harg3 : arg3.IsWhole) (arg4 : Memref sig .tc .vmem S1x1 .f32) (harg4 : arg4.IsWhole)
  (arg5 : Memref sig .tc .vmem S8x128 .f32) (harg5 : arg5.IsWhole) (arg6 : Memref sig .tc .vmem S8x128 .f32) (harg6 : arg6.IsWhole)
  (arg7 : Memref sig .tc .vmem S8x128 .f32) (harg7 : arg7.IsWhole) (hc0 : ¬cond0_0 i) (hc1 : ¬cond0_1 i)
  (x0 x1 : Vec Ideal S4x51x64x64 .f32) (x2 : Vec Ideal S1x4x17 .f32) (xs0 xs1 xs2 : Vec Ideal S8x128 .f32)

theorem sq_lane_0 : sout0_B_0 c i arg1 harg1 arg2 harg2 arg3 harg3 arg4 harg4 arg5 harg5 arg6 harg6 arg7 harg7 hc0 hc1 x0 x1 x2 xs0 xs1 xs2 (lane 0) = xs0 (lane 0) + tileSq x0 x1 x2 0 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay31, shapeCast_self]
  exact congrArg₂ (· + ·) (congrArg xs0 (funext fun a => by fin_cases a <;> rfl)) rfl

theorem sq_lane_1 : sout0_B_0 c i arg1 harg1 arg2 harg2 arg3 harg3 arg4 harg4 arg5 harg5 arg6 harg6 arg7 harg7 hc0 hc1 x0 x1 x2 xs0 xs1 xs2 (lane 1) = xs0 (lane 1) + tileSq x0 x1 x2 1 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay51, shapeCast_self]
  exact congrArg₂ (· + ·) (congrArg xs0 (funext fun a => by fin_cases a <;> rfl)) rfl

theorem sq_lane_2 : sout0_B_0 c i arg1 harg1 arg2 harg2 arg3 harg3 arg4 harg4 arg5 harg5 arg6 harg6 arg7 harg7 hc0 hc1 x0 x1 x2 xs0 xs1 xs2 (lane 2) = xs0 (lane 2) + tileSq x0 x1 x2 2 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay79, shapeCast_self]
  exact congrArg₂ (· + ·) (congrArg xs0 (funext fun a => by fin_cases a <;> rfl)) rfl

theorem sq_lane_3 : sout0_B_0 c i arg1 harg1 arg2 harg2 arg3 harg3 arg4 harg4 arg5 harg5 arg6 harg6 arg7 harg7 hc0 hc1 x0 x1 x2 xs0 xs1 xs2 (lane 3) = xs0 (lane 3) + tileSq x0 x1 x2 3 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay96, shapeCast_self]
  exact congrArg₂ (· + ·) (congrArg xs0 (funext fun a => by fin_cases a <;> rfl)) rfl

theorem sq_lane_4 : sout0_B_0 c i arg1 harg1 arg2 harg2 arg3 harg3 arg4 harg4 arg5 harg5 arg6 harg6 arg7 harg7 hc0 hc1 x0 x1 x2 xs0 xs1 xs2 (lane 4) = xs0 (lane 4) + tileSq x0 x1 x2 4 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay124, shapeCast_self]
  exact congrArg₂ (· + ·) (congrArg xs0 (funext fun a => by fin_cases a <;> rfl)) rfl

theorem sq_lane_5 : sout0_B_0 c i arg1 harg1 arg2 harg2 arg3 harg3 arg4 harg4 arg5 harg5 arg6 harg6 arg7 harg7 hc0 hc1 x0 x1 x2 xs0 xs1 xs2 (lane 5) = xs0 (lane 5) + tileSq x0 x1 x2 5 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay141, shapeCast_self]
  exact congrArg₂ (· + ·) (congrArg xs0 (funext fun a => by fin_cases a <;> rfl)) rfl

theorem sq_lane_6 : sout0_B_0 c i arg1 harg1 arg2 harg2 arg3 harg3 arg4 harg4 arg5 harg5 arg6 harg6 arg7 harg7 hc0 hc1 x0 x1 x2 xs0 xs1 xs2 (lane 6) = xs0 (lane 6) + tileSq x0 x1 x2 6 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay170, shapeCast_self]
  exact congrArg₂ (· + ·) (congrArg xs0 (funext fun a => by fin_cases a <;> rfl)) rfl

theorem sq_lane_7 : sout0_B_0 c i arg1 harg1 arg2 harg2 arg3 harg3 arg4 harg4 arg5 harg5 arg6 harg6 arg7 harg7 hc0 hc1 x0 x1 x2 xs0 xs1 xs2 (lane 7) = xs0 (lane 7) + tileSq x0 x1 x2 7 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay195, shapeCast_self]
  exact congrArg₂ (· + ·) (congrArg xs0 (funext fun a => by fin_cases a <;> rfl)) rfl

theorem sq_lane_8 : sout0_B_0 c i arg1 harg1 arg2 harg2 arg3 harg3 arg4 harg4 arg5 harg5 arg6 harg6 arg7 harg7 hc0 hc1 x0 x1 x2 xs0 xs1 xs2 (lane 8) = xs0 (lane 8) + tileSq x0 x1 x2 8 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay217, shapeCast_self]
  exact congrArg₂ (· + ·) (congrArg xs0 (funext fun a => by fin_cases a <;> rfl)) rfl

theorem sq_lane_9 : sout0_B_0 c i arg1 harg1 arg2 harg2 arg3 harg3 arg4 harg4 arg5 harg5 arg6 harg6 arg7 harg7 hc0 hc1 x0 x1 x2 xs0 xs1 xs2 (lane 9) = xs0 (lane 9) + tileSq x0 x1 x2 9 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay244, shapeCast_self]
  exact congrArg₂ (· + ·) (congrArg xs0 (funext fun a => by fin_cases a <;> rfl)) rfl

theorem sq_lane_10 : sout0_B_0 c i arg1 harg1 arg2 harg2 arg3 harg3 arg4 harg4 arg5 harg5 arg6 harg6 arg7 harg7 hc0 hc1 x0 x1 x2 xs0 xs1 xs2 (lane 10) = xs0 (lane 10) + tileSq x0 x1 x2 10 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay262, shapeCast_self]
  exact congrArg₂ (· + ·) (congrArg xs0 (funext fun a => by fin_cases a <;> rfl)) rfl

theorem sq_lane_11 : sout0_B_0 c i arg1 harg1 arg2 harg2 arg3 harg3 arg4 harg4 arg5 harg5 arg6 harg6 arg7 harg7 hc0 hc1 x0 x1 x2 xs0 xs1 xs2 (lane 11) = xs0 (lane 11) + tileSq x0 x1 x2 11 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay290, shapeCast_self]
  exact congrArg₂ (· + ·) (congrArg xs0 (funext fun a => by fin_cases a <;> rfl)) rfl

theorem sq_lane_12 : sout0_B_0 c i arg1 harg1 arg2 harg2 arg3 harg3 arg4 harg4 arg5 harg5 arg6 harg6 arg7 harg7 hc0 hc1 x0 x1 x2 xs0 xs1 xs2 (lane 12) = xs0 (lane 12) + tileSq x0 x1 x2 12 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay309, shapeCast_self]
  exact congrArg₂ (· + ·) (congrArg xs0 (funext fun a => by fin_cases a <;> rfl)) rfl

theorem sq_lane_13 : sout0_B_0 c i arg1 harg1 arg2 harg2 arg3 harg3 arg4 harg4 arg5 harg5 arg6 harg6 arg7 harg7 hc0 hc1 x0 x1 x2 xs0 xs1 xs2 (lane 13) = xs0 (lane 13) + tileSq x0 x1 x2 13 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay339, shapeCast_self]
  exact congrArg₂ (· + ·) (congrArg xs0 (funext fun a => by fin_cases a <;> rfl)) rfl

theorem sq_lane_14 : sout0_B_0 c i arg1 harg1 arg2 harg2 arg3 harg3 arg4 harg4 arg5 harg5 arg6 harg6 arg7 harg7 hc0 hc1 x0 x1 x2 xs0 xs1 xs2 (lane 14) = xs0 (lane 14) + tileSq x0 x1 x2 14 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay365, shapeCast_self]
  exact congrArg₂ (· + ·) (congrArg xs0 (funext fun a => by fin_cases a <;> rfl)) rfl

theorem sq_lane_15 : sout0_B_0 c i arg1 harg1 arg2 harg2 arg3 harg3 arg4 harg4 arg5 harg5 arg6 harg6 arg7 harg7 hc0 hc1 x0 x1 x2 xs0 xs1 xs2 (lane 15) = xs0 (lane 15) + tileSq x0 x1 x2 15 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay389, shapeCast_self]
  exact congrArg₂ (· + ·) (congrArg xs0 (funext fun a => by fin_cases a <;> rfl)) rfl

theorem sq_lane_16 : sout0_B_0 c i arg1 harg1 arg2 harg2 arg3 harg3 arg4 harg4 arg5 harg5 arg6 harg6 arg7 harg7 hc0 hc1 x0 x1 x2 xs0 xs1 xs2 (lane 16) = xs0 (lane 16) + tileSq x0 x1 x2 16 := by
  unfold sout0_B_0 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay414, shapeCast_self]
  exact congrArg₂ (· + ·) (congrArg xs0 (funext fun a => by fin_cases a <;> rfl)) rfl

theorem sq_lane : sout0_B_0 c i arg1 harg1 arg2 harg2 arg3 harg3 arg4 harg4 arg5 harg5 arg6 harg6 arg7 harg7 hc0 hc1 x0 x1 x2 xs0 xs1 xs2 (lane k) = xs0 (lane k) + tileSq x0 x1 x2 k := by
  fin_cases k
  · exact sq_lane_0 c i arg1 harg1 arg2 harg2 arg3 harg3 arg4 harg4 arg5 harg5 arg6 harg6 arg7 harg7 hc0 hc1 x0 x1 x2 xs0 xs1 xs2
  · exact sq_lane_1 c i arg1 harg1 arg2 harg2 arg3 harg3 arg4 harg4 arg5 harg5 arg6 harg6 arg7 harg7 hc0 hc1 x0 x1 x2 xs0 xs1 xs2
  · exact sq_lane_2 c i arg1 harg1 arg2 harg2 arg3 harg3 arg4 harg4 arg5 harg5 arg6 harg6 arg7 harg7 hc0 hc1 x0 x1 x2 xs0 xs1 xs2
  · exact sq_lane_3 c i arg1 harg1 arg2 harg2 arg3 harg3 arg4 harg4 arg5 harg5 arg6 harg6 arg7 harg7 hc0 hc1 x0 x1 x2 xs0 xs1 xs2
  · exact sq_lane_4 c i arg1 harg1 arg2 harg2 arg3 harg3 arg4 harg4 arg5 harg5 arg6 harg6 arg7 harg7 hc0 hc1 x0 x1 x2 xs0 xs1 xs2
  · exact sq_lane_5 c i arg1 harg1 arg2 harg2 arg3 harg3 arg4 harg4 arg5 harg5 arg6 harg6 arg7 harg7 hc0 hc1 x0 x1 x2 xs0 xs1 xs2
  · exact sq_lane_6 c i arg1 harg1 arg2 harg2 arg3 harg3 arg4 harg4 arg5 harg5 arg6 harg6 arg7 harg7 hc0 hc1 x0 x1 x2 xs0 xs1 xs2
  · exact sq_lane_7 c i arg1 harg1 arg2 harg2 arg3 harg3 arg4 harg4 arg5 harg5 arg6 harg6 arg7 harg7 hc0 hc1 x0 x1 x2 xs0 xs1 xs2
  · exact sq_lane_8 c i arg1 harg1 arg2 harg2 arg3 harg3 arg4 harg4 arg5 harg5 arg6 harg6 arg7 harg7 hc0 hc1 x0 x1 x2 xs0 xs1 xs2
  · exact sq_lane_9 c i arg1 harg1 arg2 harg2 arg3 harg3 arg4 harg4 arg5 harg5 arg6 harg6 arg7 harg7 hc0 hc1 x0 x1 x2 xs0 xs1 xs2
  · exact sq_lane_10 c i arg1 harg1 arg2 harg2 arg3 harg3 arg4 harg4 arg5 harg5 arg6 harg6 arg7 harg7 hc0 hc1 x0 x1 x2 xs0 xs1 xs2
  · exact sq_lane_11 c i arg1 harg1 arg2 harg2 arg3 harg3 arg4 harg4 arg5 harg5 arg6 harg6 arg7 harg7 hc0 hc1 x0 x1 x2 xs0 xs1 xs2
  · exact sq_lane_12 c i arg1 harg1 arg2 harg2 arg3 harg3 arg4 harg4 arg5 harg5 arg6 harg6 arg7 harg7 hc0 hc1 x0 x1 x2 xs0 xs1 xs2
  · exact sq_lane_13 c i arg1 harg1 arg2 harg2 arg3 harg3 arg4 harg4 arg5 harg5 arg6 harg6 arg7 harg7 hc0 hc1 x0 x1 x2 xs0 xs1 xs2
  · exact sq_lane_14 c i arg1 harg1 arg2 harg2 arg3 harg3 arg4 harg4 arg5 harg5 arg6 harg6 arg7 harg7 hc0 hc1 x0 x1 x2 xs0 xs1 xs2
  · exact sq_lane_15 c i arg1 harg1 arg2 harg2 arg3 harg3 arg4 harg4 arg5 harg5 arg6 harg6 arg7 harg7 hc0 hc1 x0 x1 x2 xs0 xs1 xs2
  · exact sq_lane_16 c i arg1 harg1 arg2 harg2 arg3 harg3 arg4 harg4 arg5 harg5 arg6 harg6 arg7 harg7 hc0 hc1 x0 x1 x2 xs0 xs1 xs2

theorem num_lane_0 : sout0_B_1 c i arg1 harg1 arg2 harg2 arg3 harg3 arg4 harg4 arg5 harg5 arg6 harg6 arg7 harg7 hc0 hc1 x0 x1 x2 xs0 xs1 xs2 (lane 0) = xs1 (lane 0) + tileNum x0 x1 x2 0 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay32, shapeCast_self]
  exact congrArg₂ (· + ·) (congrArg xs1 (funext fun a => by fin_cases a <;> rfl)) rfl

theorem num_lane_1 : sout0_B_1 c i arg1 harg1 arg2 harg2 arg3 harg3 arg4 harg4 arg5 harg5 arg6 harg6 arg7 harg7 hc0 hc1 x0 x1 x2 xs0 xs1 xs2 (lane 1) = xs1 (lane 1) + tileNum x0 x1 x2 1 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay52, shapeCast_self]
  exact congrArg₂ (· + ·) (congrArg xs1 (funext fun a => by fin_cases a <;> rfl)) rfl

theorem num_lane_2 : sout0_B_1 c i arg1 harg1 arg2 harg2 arg3 harg3 arg4 harg4 arg5 harg5 arg6 harg6 arg7 harg7 hc0 hc1 x0 x1 x2 xs0 xs1 xs2 (lane 2) = xs1 (lane 2) + tileNum x0 x1 x2 2 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay80, shapeCast_self]
  exact congrArg₂ (· + ·) (congrArg xs1 (funext fun a => by fin_cases a <;> rfl)) rfl

theorem num_lane_3 : sout0_B_1 c i arg1 harg1 arg2 harg2 arg3 harg3 arg4 harg4 arg5 harg5 arg6 harg6 arg7 harg7 hc0 hc1 x0 x1 x2 xs0 xs1 xs2 (lane 3) = xs1 (lane 3) + tileNum x0 x1 x2 3 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay97, shapeCast_self]
  exact congrArg₂ (· + ·) (congrArg xs1 (funext fun a => by fin_cases a <;> rfl)) rfl

theorem num_lane_4 : sout0_B_1 c i arg1 harg1 arg2 harg2 arg3 harg3 arg4 harg4 arg5 harg5 arg6 harg6 arg7 harg7 hc0 hc1 x0 x1 x2 xs0 xs1 xs2 (lane 4) = xs1 (lane 4) + tileNum x0 x1 x2 4 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay126, shapeCast_self]
  exact congrArg₂ (· + ·) (congrArg xs1 (funext fun a => by fin_cases a <;> rfl)) rfl

theorem num_lane_5 : sout0_B_1 c i arg1 harg1 arg2 harg2 arg3 harg3 arg4 harg4 arg5 harg5 arg6 harg6 arg7 harg7 hc0 hc1 x0 x1 x2 xs0 xs1 xs2 (lane 5) = xs1 (lane 5) + tileNum x0 x1 x2 5 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay142, shapeCast_self]
  exact congrArg₂ (· + ·) (congrArg xs1 (funext fun a => by fin_cases a <;> rfl)) rfl

theorem num_lane_6 : sout0_B_1 c i arg1 harg1 arg2 harg2 arg3 harg3 arg4 harg4 arg5 harg5 arg6 harg6 arg7 harg7 hc0 hc1 x0 x1 x2 xs0 xs1 xs2 (lane 6) = xs1 (lane 6) + tileNum x0 x1 x2 6 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay171, shapeCast_self]
  exact congrArg₂ (· + ·) (congrArg xs1 (funext fun a => by fin_cases a <;> rfl)) rfl

theorem num_lane_7 : sout0_B_1 c i arg1 harg1 arg2 harg2 arg3 harg3 arg4 harg4 arg5 harg5 arg6 harg6 arg7 harg7 hc0 hc1 x0 x1 x2 xs0 xs1 xs2 (lane 7) = xs1 (lane 7) + tileNum x0 x1 x2 7 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay196, shapeCast_self]
  exact congrArg₂ (· + ·) (congrArg xs1 (funext fun a => by fin_cases a <;> rfl)) rfl

theorem num_lane_8 : sout0_B_1 c i arg1 harg1 arg2 harg2 arg3 harg3 arg4 harg4 arg5 harg5 arg6 harg6 arg7 harg7 hc0 hc1 x0 x1 x2 xs0 xs1 xs2 (lane 8) = xs1 (lane 8) + tileNum x0 x1 x2 8 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay218, shapeCast_self]
  exact congrArg₂ (· + ·) (congrArg xs1 (funext fun a => by fin_cases a <;> rfl)) rfl

theorem num_lane_9 : sout0_B_1 c i arg1 harg1 arg2 harg2 arg3 harg3 arg4 harg4 arg5 harg5 arg6 harg6 arg7 harg7 hc0 hc1 x0 x1 x2 xs0 xs1 xs2 (lane 9) = xs1 (lane 9) + tileNum x0 x1 x2 9 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay245, shapeCast_self]
  exact congrArg₂ (· + ·) (congrArg xs1 (funext fun a => by fin_cases a <;> rfl)) rfl

theorem num_lane_10 : sout0_B_1 c i arg1 harg1 arg2 harg2 arg3 harg3 arg4 harg4 arg5 harg5 arg6 harg6 arg7 harg7 hc0 hc1 x0 x1 x2 xs0 xs1 xs2 (lane 10) = xs1 (lane 10) + tileNum x0 x1 x2 10 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay263, shapeCast_self]
  exact congrArg₂ (· + ·) (congrArg xs1 (funext fun a => by fin_cases a <;> rfl)) rfl

theorem num_lane_11 : sout0_B_1 c i arg1 harg1 arg2 harg2 arg3 harg3 arg4 harg4 arg5 harg5 arg6 harg6 arg7 harg7 hc0 hc1 x0 x1 x2 xs0 xs1 xs2 (lane 11) = xs1 (lane 11) + tileNum x0 x1 x2 11 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay292, shapeCast_self]
  exact congrArg₂ (· + ·) (congrArg xs1 (funext fun a => by fin_cases a <;> rfl)) rfl

theorem num_lane_12 : sout0_B_1 c i arg1 harg1 arg2 harg2 arg3 harg3 arg4 harg4 arg5 harg5 arg6 harg6 arg7 harg7 hc0 hc1 x0 x1 x2 xs0 xs1 xs2 (lane 12) = xs1 (lane 12) + tileNum x0 x1 x2 12 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay310, shapeCast_self]
  exact congrArg₂ (· + ·) (congrArg xs1 (funext fun a => by fin_cases a <;> rfl)) rfl

theorem num_lane_13 : sout0_B_1 c i arg1 harg1 arg2 harg2 arg3 harg3 arg4 harg4 arg5 harg5 arg6 harg6 arg7 harg7 hc0 hc1 x0 x1 x2 xs0 xs1 xs2 (lane 13) = xs1 (lane 13) + tileNum x0 x1 x2 13 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay340, shapeCast_self]
  exact congrArg₂ (· + ·) (congrArg xs1 (funext fun a => by fin_cases a <;> rfl)) rfl

theorem num_lane_14 : sout0_B_1 c i arg1 harg1 arg2 harg2 arg3 harg3 arg4 harg4 arg5 harg5 arg6 harg6 arg7 harg7 hc0 hc1 x0 x1 x2 xs0 xs1 xs2 (lane 14) = xs1 (lane 14) + tileNum x0 x1 x2 14 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay366, shapeCast_self]
  exact congrArg₂ (· + ·) (congrArg xs1 (funext fun a => by fin_cases a <;> rfl)) rfl

theorem num_lane_15 : sout0_B_1 c i arg1 harg1 arg2 harg2 arg3 harg3 arg4 harg4 arg5 harg5 arg6 harg6 arg7 harg7 hc0 hc1 x0 x1 x2 xs0 xs1 xs2 (lane 15) = xs1 (lane 15) + tileNum x0 x1 x2 15 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay390, shapeCast_self]
  exact congrArg₂ (· + ·) (congrArg xs1 (funext fun a => by fin_cases a <;> rfl)) rfl

theorem num_lane_16 : sout0_B_1 c i arg1 harg1 arg2 harg2 arg3 harg3 arg4 harg4 arg5 harg5 arg6 harg6 arg7 harg7 hc0 hc1 x0 x1 x2 xs0 xs1 xs2 (lane 16) = xs1 (lane 16) + tileNum x0 x1 x2 16 := by
  unfold sout0_B_1 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay415, shapeCast_self]
  exact congrArg₂ (· + ·) (congrArg xs1 (funext fun a => by fin_cases a <;> rfl)) rfl

theorem num_lane : sout0_B_1 c i arg1 harg1 arg2 harg2 arg3 harg3 arg4 harg4 arg5 harg5 arg6 harg6 arg7 harg7 hc0 hc1 x0 x1 x2 xs0 xs1 xs2 (lane k) = xs1 (lane k) + tileNum x0 x1 x2 k := by
  fin_cases k
  · exact num_lane_0 c i arg1 harg1 arg2 harg2 arg3 harg3 arg4 harg4 arg5 harg5 arg6 harg6 arg7 harg7 hc0 hc1 x0 x1 x2 xs0 xs1 xs2
  · exact num_lane_1 c i arg1 harg1 arg2 harg2 arg3 harg3 arg4 harg4 arg5 harg5 arg6 harg6 arg7 harg7 hc0 hc1 x0 x1 x2 xs0 xs1 xs2
  · exact num_lane_2 c i arg1 harg1 arg2 harg2 arg3 harg3 arg4 harg4 arg5 harg5 arg6 harg6 arg7 harg7 hc0 hc1 x0 x1 x2 xs0 xs1 xs2
  · exact num_lane_3 c i arg1 harg1 arg2 harg2 arg3 harg3 arg4 harg4 arg5 harg5 arg6 harg6 arg7 harg7 hc0 hc1 x0 x1 x2 xs0 xs1 xs2
  · exact num_lane_4 c i arg1 harg1 arg2 harg2 arg3 harg3 arg4 harg4 arg5 harg5 arg6 harg6 arg7 harg7 hc0 hc1 x0 x1 x2 xs0 xs1 xs2
  · exact num_lane_5 c i arg1 harg1 arg2 harg2 arg3 harg3 arg4 harg4 arg5 harg5 arg6 harg6 arg7 harg7 hc0 hc1 x0 x1 x2 xs0 xs1 xs2
  · exact num_lane_6 c i arg1 harg1 arg2 harg2 arg3 harg3 arg4 harg4 arg5 harg5 arg6 harg6 arg7 harg7 hc0 hc1 x0 x1 x2 xs0 xs1 xs2
  · exact num_lane_7 c i arg1 harg1 arg2 harg2 arg3 harg3 arg4 harg4 arg5 harg5 arg6 harg6 arg7 harg7 hc0 hc1 x0 x1 x2 xs0 xs1 xs2
  · exact num_lane_8 c i arg1 harg1 arg2 harg2 arg3 harg3 arg4 harg4 arg5 harg5 arg6 harg6 arg7 harg7 hc0 hc1 x0 x1 x2 xs0 xs1 xs2
  · exact num_lane_9 c i arg1 harg1 arg2 harg2 arg3 harg3 arg4 harg4 arg5 harg5 arg6 harg6 arg7 harg7 hc0 hc1 x0 x1 x2 xs0 xs1 xs2
  · exact num_lane_10 c i arg1 harg1 arg2 harg2 arg3 harg3 arg4 harg4 arg5 harg5 arg6 harg6 arg7 harg7 hc0 hc1 x0 x1 x2 xs0 xs1 xs2
  · exact num_lane_11 c i arg1 harg1 arg2 harg2 arg3 harg3 arg4 harg4 arg5 harg5 arg6 harg6 arg7 harg7 hc0 hc1 x0 x1 x2 xs0 xs1 xs2
  · exact num_lane_12 c i arg1 harg1 arg2 harg2 arg3 harg3 arg4 harg4 arg5 harg5 arg6 harg6 arg7 harg7 hc0 hc1 x0 x1 x2 xs0 xs1 xs2
  · exact num_lane_13 c i arg1 harg1 arg2 harg2 arg3 harg3 arg4 harg4 arg5 harg5 arg6 harg6 arg7 harg7 hc0 hc1 x0 x1 x2 xs0 xs1 xs2
  · exact num_lane_14 c i arg1 harg1 arg2 harg2 arg3 harg3 arg4 harg4 arg5 harg5 arg6 harg6 arg7 harg7 hc0 hc1 x0 x1 x2 xs0 xs1 xs2
  · exact num_lane_15 c i arg1 harg1 arg2 harg2 arg3 harg3 arg4 harg4 arg5 harg5 arg6 harg6 arg7 harg7 hc0 hc1 x0 x1 x2 xs0 xs1 xs2
  · exact num_lane_16 c i arg1 harg1 arg2 harg2 arg3 harg3 arg4 harg4 arg5 harg5 arg6 harg6 arg7 harg7 hc0 hc1 x0 x1 x2 xs0 xs1 xs2

theorem den_lane_0 : sout0_B_2 c i arg1 harg1 arg2 harg2 arg3 harg3 arg4 harg4 arg5 harg5 arg6 harg6 arg7 harg7 hc0 hc1 x0 x1 x2 xs0 xs1 xs2 (lane 0) = xs2 (lane 0) + tileDen x1 x2 0 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay33, shapeCast_self]
  exact congrArg₂ (· + ·) (congrArg xs2 (funext fun a => by fin_cases a <;> rfl)) rfl

theorem den_lane_1 : sout0_B_2 c i arg1 harg1 arg2 harg2 arg3 harg3 arg4 harg4 arg5 harg5 arg6 harg6 arg7 harg7 hc0 hc1 x0 x1 x2 xs0 xs1 xs2 (lane 1) = xs2 (lane 1) + tileDen x1 x2 1 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay53, shapeCast_self]
  exact congrArg₂ (· + ·) (congrArg xs2 (funext fun a => by fin_cases a <;> rfl)) rfl

theorem den_lane_2 : sout0_B_2 c i arg1 harg1 arg2 harg2 arg3 harg3 arg4 harg4 arg5 harg5 arg6 harg6 arg7 harg7 hc0 hc1 x0 x1 x2 xs0 xs1 xs2 (lane 2) = xs2 (lane 2) + tileDen x1 x2 2 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay81, shapeCast_self]
  exact congrArg₂ (· + ·) (congrArg xs2 (funext fun a => by fin_cases a <;> rfl)) rfl

theorem den_lane_3 : sout0_B_2 c i arg1 harg1 arg2 harg2 arg3 harg3 arg4 harg4 arg5 harg5 arg6 harg6 arg7 harg7 hc0 hc1 x0 x1 x2 xs0 xs1 xs2 (lane 3) = xs2 (lane 3) + tileDen x1 x2 3 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay98, shapeCast_self]
  exact congrArg₂ (· + ·) (congrArg xs2 (funext fun a => by fin_cases a <;> rfl)) rfl

theorem den_lane_4 : sout0_B_2 c i arg1 harg1 arg2 harg2 arg3 harg3 arg4 harg4 arg5 harg5 arg6 harg6 arg7 harg7 hc0 hc1 x0 x1 x2 xs0 xs1 xs2 (lane 4) = xs2 (lane 4) + tileDen x1 x2 4 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay127, shapeCast_self]
  exact congrArg₂ (· + ·) (congrArg xs2 (funext fun a => by fin_cases a <;> rfl)) rfl

theorem den_lane_5 : sout0_B_2 c i arg1 harg1 arg2 harg2 arg3 harg3 arg4 harg4 arg5 harg5 arg6 harg6 arg7 harg7 hc0 hc1 x0 x1 x2 xs0 xs1 xs2 (lane 5) = xs2 (lane 5) + tileDen x1 x2 5 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay143, shapeCast_self]
  exact congrArg₂ (· + ·) (congrArg xs2 (funext fun a => by fin_cases a <;> rfl)) rfl

theorem den_lane_6 : sout0_B_2 c i arg1 harg1 arg2 harg2 arg3 harg3 arg4 harg4 arg5 harg5 arg6 harg6 arg7 harg7 hc0 hc1 x0 x1 x2 xs0 xs1 xs2 (lane 6) = xs2 (lane 6) + tileDen x1 x2 6 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay172, shapeCast_self]
  exact congrArg₂ (· + ·) (congrArg xs2 (funext fun a => by fin_cases a <;> rfl)) rfl

theorem den_lane_7 : sout0_B_2 c i arg1 harg1 arg2 harg2 arg3 harg3 arg4 harg4 arg5 harg5 arg6 harg6 arg7 harg7 hc0 hc1 x0 x1 x2 xs0 xs1 xs2 (lane 7) = xs2 (lane 7) + tileDen x1 x2 7 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay197, shapeCast_self]
  exact congrArg₂ (· + ·) (congrArg xs2 (funext fun a => by fin_cases a <;> rfl)) rfl

theorem den_lane_8 : sout0_B_2 c i arg1 harg1 arg2 harg2 arg3 harg3 arg4 harg4 arg5 harg5 arg6 harg6 arg7 harg7 hc0 hc1 x0 x1 x2 xs0 xs1 xs2 (lane 8) = xs2 (lane 8) + tileDen x1 x2 8 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay219, shapeCast_self]
  exact congrArg₂ (· + ·) (congrArg xs2 (funext fun a => by fin_cases a <;> rfl)) rfl

theorem den_lane_9 : sout0_B_2 c i arg1 harg1 arg2 harg2 arg3 harg3 arg4 harg4 arg5 harg5 arg6 harg6 arg7 harg7 hc0 hc1 x0 x1 x2 xs0 xs1 xs2 (lane 9) = xs2 (lane 9) + tileDen x1 x2 9 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay247, shapeCast_self]
  exact congrArg₂ (· + ·) (congrArg xs2 (funext fun a => by fin_cases a <;> rfl)) rfl

theorem den_lane_10 : sout0_B_2 c i arg1 harg1 arg2 harg2 arg3 harg3 arg4 harg4 arg5 harg5 arg6 harg6 arg7 harg7 hc0 hc1 x0 x1 x2 xs0 xs1 xs2 (lane 10) = xs2 (lane 10) + tileDen x1 x2 10 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay264, shapeCast_self]
  exact congrArg₂ (· + ·) (congrArg xs2 (funext fun a => by fin_cases a <;> rfl)) rfl

theorem den_lane_11 : sout0_B_2 c i arg1 harg1 arg2 harg2 arg3 harg3 arg4 harg4 arg5 harg5 arg6 harg6 arg7 harg7 hc0 hc1 x0 x1 x2 xs0 xs1 xs2 (lane 11) = xs2 (lane 11) + tileDen x1 x2 11 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay293, shapeCast_self]
  exact congrArg₂ (· + ·) (congrArg xs2 (funext fun a => by fin_cases a <;> rfl)) rfl

theorem den_lane_12 : sout0_B_2 c i arg1 harg1 arg2 harg2 arg3 harg3 arg4 harg4 arg5 harg5 arg6 harg6 arg7 harg7 hc0 hc1 x0 x1 x2 xs0 xs1 xs2 (lane 12) = xs2 (lane 12) + tileDen x1 x2 12 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay311, shapeCast_self]
  exact congrArg₂ (· + ·) (congrArg xs2 (funext fun a => by fin_cases a <;> rfl)) rfl

theorem den_lane_13 : sout0_B_2 c i arg1 harg1 arg2 harg2 arg3 harg3 arg4 harg4 arg5 harg5 arg6 harg6 arg7 harg7 hc0 hc1 x0 x1 x2 xs0 xs1 xs2 (lane 13) = xs2 (lane 13) + tileDen x1 x2 13 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay341, shapeCast_self]
  exact congrArg₂ (· + ·) (congrArg xs2 (funext fun a => by fin_cases a <;> rfl)) rfl

theorem den_lane_14 : sout0_B_2 c i arg1 harg1 arg2 harg2 arg3 harg3 arg4 harg4 arg5 harg5 arg6 harg6 arg7 harg7 hc0 hc1 x0 x1 x2 xs0 xs1 xs2 (lane 14) = xs2 (lane 14) + tileDen x1 x2 14 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay367, shapeCast_self]
  exact congrArg₂ (· + ·) (congrArg xs2 (funext fun a => by fin_cases a <;> rfl)) rfl

theorem den_lane_15 : sout0_B_2 c i arg1 harg1 arg2 harg2 arg3 harg3 arg4 harg4 arg5 harg5 arg6 harg6 arg7 harg7 hc0 hc1 x0 x1 x2 xs0 xs1 xs2 (lane 15) = xs2 (lane 15) + tileDen x1 x2 15 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay391, shapeCast_self]
  exact congrArg₂ (· + ·) (congrArg xs2 (funext fun a => by fin_cases a <;> rfl)) rfl

theorem den_lane_16 : sout0_B_2 c i arg1 harg1 arg2 harg2 arg3 harg3 arg4 harg4 arg5 harg5 arg6 harg6 arg7 harg7 hc0 hc1 x0 x1 x2 xs0 xs1 xs2 (lane 16) = xs2 (lane 16) + tileDen x1 x2 16 := by
  unfold sout0_B_2 kernelRun0_B
  dsimp only
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay1, shapeCast_self]
  exact congrArg₂ (· + ·) (congrArg xs2 (funext fun a => by fin_cases a <;> rfl)) rfl

theorem den_lane : sout0_B_2 c i arg1 harg1 arg2 harg2 arg3 harg3 arg4 harg4 arg5 harg5 arg6 harg6 arg7 harg7 hc0 hc1 x0 x1 x2 xs0 xs1 xs2 (lane k) = xs2 (lane k) + tileDen x1 x2 k := by
  fin_cases k
  · exact den_lane_0 c i arg1 harg1 arg2 harg2 arg3 harg3 arg4 harg4 arg5 harg5 arg6 harg6 arg7 harg7 hc0 hc1 x0 x1 x2 xs0 xs1 xs2
  · exact den_lane_1 c i arg1 harg1 arg2 harg2 arg3 harg3 arg4 harg4 arg5 harg5 arg6 harg6 arg7 harg7 hc0 hc1 x0 x1 x2 xs0 xs1 xs2
  · exact den_lane_2 c i arg1 harg1 arg2 harg2 arg3 harg3 arg4 harg4 arg5 harg5 arg6 harg6 arg7 harg7 hc0 hc1 x0 x1 x2 xs0 xs1 xs2
  · exact den_lane_3 c i arg1 harg1 arg2 harg2 arg3 harg3 arg4 harg4 arg5 harg5 arg6 harg6 arg7 harg7 hc0 hc1 x0 x1 x2 xs0 xs1 xs2
  · exact den_lane_4 c i arg1 harg1 arg2 harg2 arg3 harg3 arg4 harg4 arg5 harg5 arg6 harg6 arg7 harg7 hc0 hc1 x0 x1 x2 xs0 xs1 xs2
  · exact den_lane_5 c i arg1 harg1 arg2 harg2 arg3 harg3 arg4 harg4 arg5 harg5 arg6 harg6 arg7 harg7 hc0 hc1 x0 x1 x2 xs0 xs1 xs2
  · exact den_lane_6 c i arg1 harg1 arg2 harg2 arg3 harg3 arg4 harg4 arg5 harg5 arg6 harg6 arg7 harg7 hc0 hc1 x0 x1 x2 xs0 xs1 xs2
  · exact den_lane_7 c i arg1 harg1 arg2 harg2 arg3 harg3 arg4 harg4 arg5 harg5 arg6 harg6 arg7 harg7 hc0 hc1 x0 x1 x2 xs0 xs1 xs2
  · exact den_lane_8 c i arg1 harg1 arg2 harg2 arg3 harg3 arg4 harg4 arg5 harg5 arg6 harg6 arg7 harg7 hc0 hc1 x0 x1 x2 xs0 xs1 xs2
  · exact den_lane_9 c i arg1 harg1 arg2 harg2 arg3 harg3 arg4 harg4 arg5 harg5 arg6 harg6 arg7 harg7 hc0 hc1 x0 x1 x2 xs0 xs1 xs2
  · exact den_lane_10 c i arg1 harg1 arg2 harg2 arg3 harg3 arg4 harg4 arg5 harg5 arg6 harg6 arg7 harg7 hc0 hc1 x0 x1 x2 xs0 xs1 xs2
  · exact den_lane_11 c i arg1 harg1 arg2 harg2 arg3 harg3 arg4 harg4 arg5 harg5 arg6 harg6 arg7 harg7 hc0 hc1 x0 x1 x2 xs0 xs1 xs2
  · exact den_lane_12 c i arg1 harg1 arg2 harg2 arg3 harg3 arg4 harg4 arg5 harg5 arg6 harg6 arg7 harg7 hc0 hc1 x0 x1 x2 xs0 xs1 xs2
  · exact den_lane_13 c i arg1 harg1 arg2 harg2 arg3 harg3 arg4 harg4 arg5 harg5 arg6 harg6 arg7 harg7 hc0 hc1 x0 x1 x2 xs0 xs1 xs2
  · exact den_lane_14 c i arg1 harg1 arg2 harg2 arg3 harg3 arg4 harg4 arg5 harg5 arg6 harg6 arg7 harg7 hc0 hc1 x0 x1 x2 xs0 xs1 xs2
  · exact den_lane_15 c i arg1 harg1 arg2 harg2 arg3 harg3 arg4 harg4 arg5 harg5 arg6 harg6 arg7 harg7 hc0 hc1 x0 x1 x2 xs0 xs1 xs2
  · exact den_lane_16 c i arg1 harg1 arg2 harg2 arg3 harg3 arg4 harg4 arg5 harg5 arg6 harg6 arg7 harg7 hc0 hc1 x0 x1 x2 xs0 xs1 xs2

end Cert.KernelIdeal.LanesB
end
-- ==== Proof.LanesCRead.lean ====
import proofs.«405258_j67929202754306_4_alg».proof.Proof.Gen.KernelIdeal.Frame
import proofs.«405258_j67929202754306_4_alg».proof.Proof.Tile
import proofs.«405258_j67929202754306_4_alg».proof.Proof.Filled
import Idealize.ShloMosaic.Lib.Tactic

set_option maxRecDepth 16384

noncomputable section
open Idealize.ShloMosaic Idealize.ShloMosaic.TcCoe Idealize.SL.Sem
open Idealize.ShloMosaic.ValueIdx
namespace Cert.KernelIdeal.LanesC
open Cert.KernelIdeal Cert.KernelIdeal.Gen Cert.KernelIdeal.Tile Cert.KernelIdeal.Filled

variable (k : Fin 17) (c : Dev nD) (i : grid0.Coords)
  (arg1 : Memref sig .tc .vmem S4x51x64x64 .f32) (harg1 : arg1.IsWhole) (arg2 : Memref sig .tc .vmem S4x51x64x64 .f32) (harg2 : arg2.IsWhole)
  (arg3 : Memref sig .tc .vmem S1x4x17 .f32) (harg3 : arg3.IsWhole) (arg4 : Memref sig .tc .vmem S1x1 .f32) (harg4 : arg4.IsWhole)
  (arg5 : Memref sig .tc .vmem S8x128 .f32) (harg5 : arg5.IsWhole) (arg6 : Memref sig .tc .vmem S8x128 .f32) (harg6 : arg6.IsWhole)
  (arg7 : Memref sig .tc .vmem S8x128 .f32) (harg7 : arg7.IsWhole) (hc0 : ¬cond0_0 i) (hc1 : cond0_1 i)
  (x0 x1 : Vec Ideal S4x51x64x64 .f32) (x2 : Vec Ideal S1x4x17 .f32) (xs0 xs1 xs2 : Vec Ideal S8x128 .f32)

theorem sq_read_0 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 0) = xs0 (lane 0) + tileSq x0 x1 x2 0 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay31, shapeCast_self]
  exact congrArg₂ (· + ·) (congrArg xs0 (funext fun a => by fin_cases a <;> rfl)) rfl

theorem sq_read_1 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 1) = xs0 (lane 1) + tileSq x0 x1 x2 1 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay51, shapeCast_self]
  exact congrArg₂ (· + ·) (congrArg xs0 (funext fun a => by fin_cases a <;> rfl)) rfl

theorem sq_read_2 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 2) = xs0 (lane 2) + tileSq x0 x1 x2 2 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay79, shapeCast_self]
  exact congrArg₂ (· + ·) (congrArg xs0 (funext fun a => by fin_cases a <;> rfl)) rfl

theorem sq_read_3 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 3) = xs0 (lane 3) + tileSq x0 x1 x2 3 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay96, shapeCast_self]
  exact congrArg₂ (· + ·) (congrArg xs0 (funext fun a => by fin_cases a <;> rfl)) rfl

theorem sq_read_4 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 4) = xs0 (lane 4) + tileSq x0 x1 x2 4 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay124, shapeCast_self]
  exact congrArg₂ (· + ·) (congrArg xs0 (funext fun a => by fin_cases a <;> rfl)) rfl

theorem sq_read_5 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 5) = xs0 (lane 5) + tileSq x0 x1 x2 5 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay141, shapeCast_self]
  exact congrArg₂ (· + ·) (congrArg xs0 (funext fun a => by fin_cases a <;> rfl)) rfl

theorem sq_read_6 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 6) = xs0 (lane 6) + tileSq x0 x1 x2 6 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay170, k0_pay169, shapeCast_self]
  exact congrArg₂ (· + ·) (congrArg xs0 (funext fun a => by fin_cases a <;> rfl)) rfl

theorem sq_read_7 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 7) = xs0 (lane 7) + tileSq x0 x1 x2 7 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay195, shapeCast_self]
  exact congrArg₂ (· + ·) (congrArg xs0 (funext fun a => by fin_cases a <;> rfl)) rfl

theorem sq_read_8 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 8) = xs0 (lane 8) + tileSq x0 x1 x2 8 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay217, shapeCast_self]
  exact congrArg₂ (· + ·) (congrArg xs0 (funext fun a => by fin_cases a <;> rfl)) rfl

theorem sq_read_9 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 9) = xs0 (lane 9) + tileSq x0 x1 x2 9 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay244, shapeCast_self]
  exact congrArg₂ (· + ·) (congrArg xs0 (funext fun a => by fin_cases a <;> rfl)) rfl

theorem sq_read_10 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 10) = xs0 (lane 10) + tileSq x0 x1 x2 10 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay262, shapeCast_self]
  exact congrArg₂ (· + ·) (congrArg xs0 (funext fun a => by fin_cases a <;> rfl)) rfl

theorem sq_read_11 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 11) = xs0 (lane 11) + tileSq x0 x1 x2 11 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay290, shapeCast_self]
  exact congrArg₂ (· + ·) (congrArg xs0 (funext fun a => by fin_cases a <;> rfl)) rfl

theorem sq_read_12 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 12) = xs0 (lane 12) + tileSq x0 x1 x2 12 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay309, shapeCast_self]
  exact congrArg₂ (· + ·) (congrArg xs0 (funext fun a => by fin_cases a <;> rfl)) rfl

theorem sq_read_13 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 13) = xs0 (lane 13) + tileSq x0 x1 x2 13 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay339, k0_pay338, shapeCast_self]
  exact congrArg₂ (· + ·) (congrArg xs0 (funext fun a => by fin_cases a <;> rfl)) rfl

theorem sq_read_14 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 14) = xs0 (lane 14) + tileSq x0 x1 x2 14 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay365, shapeCast_self]
  exact congrArg₂ (· + ·) (congrArg xs0 (funext fun a => by fin_cases a <;> rfl)) rfl

theorem sq_read_15 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 15) = xs0 (lane 15) + tileSq x0 x1 x2 15 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay389, shapeCast_self]
  exact congrArg₂ (· + ·) (congrArg xs0 (funext fun a => by fin_cases a <;> rfl)) rfl

theorem sq_read_16 (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane 16) = xs0 (lane 16) + tileSq x0 x1 x2 16 := by
  unfold kernelRun0_C.sl.HS0_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay414, shapeCast_self]
  exact congrArg₂ (· + ·) (congrArg xs0 (funext fun a => by fin_cases a <;> rfl)) rfl

theorem sq_read (f : arg5.view.ty.Contents (Elt Ideal)) :
    arg5.view.read (Elt Ideal) (arg5.view.writes (Elt Ideal) f (kernelRun0_C.sl.HS0_17 c arg1 harg1 arg2 harg2 arg3 harg3 arg5 harg5 x0 x1 x2 xs0)) (lane k) = xs0 (lane k) + tileSq x0 x1 x2 k := by
  fin_cases k
  · exact sq_read_0 c arg1 harg1 arg2 harg2 arg3 harg3 arg5 harg5 x0 x1 x2 xs0 f
  · exact sq_read_1 c arg1 harg1 arg2 harg2 arg3 harg3 arg5 harg5 x0 x1 x2 xs0 f
  · exact sq_read_2 c arg1 harg1 arg2 harg2 arg3 harg3 arg5 harg5 x0 x1 x2 xs0 f
  · exact sq_read_3 c arg1 harg1 arg2 harg2 arg3 harg3 arg5 harg5 x0 x1 x2 xs0 f
  · exact sq_read_4 c arg1 harg1 arg2 harg2 arg3 harg3 arg5 harg5 x0 x1 x2 xs0 f
  · exact sq_read_5 c arg1 harg1 arg2 harg2 arg3 harg3 arg5 harg5 x0 x1 x2 xs0 f
  · exact sq_read_6 c arg1 harg1 arg2 harg2 arg3 harg3 arg5 harg5 x0 x1 x2 xs0 f
  · exact sq_read_7 c arg1 harg1 arg2 harg2 arg3 harg3 arg5 harg5 x0 x1 x2 xs0 f
  · exact sq_read_8 c arg1 harg1 arg2 harg2 arg3 harg3 arg5 harg5 x0 x1 x2 xs0 f
  · exact sq_read_9 c arg1 harg1 arg2 harg2 arg3 harg3 arg5 harg5 x0 x1 x2 xs0 f
  · exact sq_read_10 c arg1 harg1 arg2 harg2 arg3 harg3 arg5 harg5 x0 x1 x2 xs0 f
  · exact sq_read_11 c arg1 harg1 arg2 harg2 arg3 harg3 arg5 harg5 x0 x1 x2 xs0 f
  · exact sq_read_12 c arg1 harg1 arg2 harg2 arg3 harg3 arg5 harg5 x0 x1 x2 xs0 f
  · exact sq_read_13 c arg1 harg1 arg2 harg2 arg3 harg3 arg5 harg5 x0 x1 x2 xs0 f
  · exact sq_read_14 c arg1 harg1 arg2 harg2 arg3 harg3 arg5 harg5 x0 x1 x2 xs0 f
  · exact sq_read_15 c arg1 harg1 arg2 harg2 arg3 harg3 arg5 harg5 x0 x1 x2 xs0 f
  · exact sq_read_16 c arg1 harg1 arg2 harg2 arg3 harg3 arg5 harg5 x0 x1 x2 xs0 f

theorem num_read_0 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 0) = xs1 (lane 0) + tileNum x0 x1 x2 0 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay32, shapeCast_self]
  exact congrArg₂ (· + ·) (congrArg xs1 (funext fun a => by fin_cases a <;> rfl)) rfl

theorem num_read_1 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 1) = xs1 (lane 1) + tileNum x0 x1 x2 1 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay52, shapeCast_self]
  exact congrArg₂ (· + ·) (congrArg xs1 (funext fun a => by fin_cases a <;> rfl)) rfl

theorem num_read_2 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 2) = xs1 (lane 2) + tileNum x0 x1 x2 2 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay80, shapeCast_self]
  exact congrArg₂ (· + ·) (congrArg xs1 (funext fun a => by fin_cases a <;> rfl)) rfl

theorem num_read_3 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 3) = xs1 (lane 3) + tileNum x0 x1 x2 3 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay97, shapeCast_self]
  exact congrArg₂ (· + ·) (congrArg xs1 (funext fun a => by fin_cases a <;> rfl)) rfl

theorem num_read_4 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 4) = xs1 (lane 4) + tileNum x0 x1 x2 4 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay126, k0_pay125, shapeCast_self]
  exact congrArg₂ (· + ·) (congrArg xs1 (funext fun a => by fin_cases a <;> rfl)) rfl

theorem num_read_5 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 5) = xs1 (lane 5) + tileNum x0 x1 x2 5 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay142, shapeCast_self]
  exact congrArg₂ (· + ·) (congrArg xs1 (funext fun a => by fin_cases a <;> rfl)) rfl

theorem num_read_6 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 6) = xs1 (lane 6) + tileNum x0 x1 x2 6 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay171, shapeCast_self]
  exact congrArg₂ (· + ·) (congrArg xs1 (funext fun a => by fin_cases a <;> rfl)) rfl

theorem num_read_7 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 7) = xs1 (lane 7) + tileNum x0 x1 x2 7 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay196, shapeCast_self]
  exact congrArg₂ (· + ·) (congrArg xs1 (funext fun a => by fin_cases a <;> rfl)) rfl

theorem num_read_8 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 8) = xs1 (lane 8) + tileNum x0 x1 x2 8 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay218, shapeCast_self]
  exact congrArg₂ (· + ·) (congrArg xs1 (funext fun a => by fin_cases a <;> rfl)) rfl

theorem num_read_9 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 9) = xs1 (lane 9) + tileNum x0 x1 x2 9 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay245, shapeCast_self]
  exact congrArg₂ (· + ·) (congrArg xs1 (funext fun a => by fin_cases a <;> rfl)) rfl

theorem num_read_10 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 10) = xs1 (lane 10) + tileNum x0 x1 x2 10 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay263, shapeCast_self]
  exact congrArg₂ (· + ·) (congrArg xs1 (funext fun a => by fin_cases a <;> rfl)) rfl

theorem num_read_11 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 11) = xs1 (lane 11) + tileNum x0 x1 x2 11 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay292, k0_pay291, shapeCast_self]
  exact congrArg₂ (· + ·) (congrArg xs1 (funext fun a => by fin_cases a <;> rfl)) rfl

theorem num_read_12 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 12) = xs1 (lane 12) + tileNum x0 x1 x2 12 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay310, shapeCast_self]
  exact congrArg₂ (· + ·) (congrArg xs1 (funext fun a => by fin_cases a <;> rfl)) rfl

theorem num_read_13 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 13) = xs1 (lane 13) + tileNum x0 x1 x2 13 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay340, shapeCast_self]
  exact congrArg₂ (· + ·) (congrArg xs1 (funext fun a => by fin_cases a <;> rfl)) rfl

theorem num_read_14 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 14) = xs1 (lane 14) + tileNum x0 x1 x2 14 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay366, shapeCast_self]
  exact congrArg₂ (· + ·) (congrArg xs1 (funext fun a => by fin_cases a <;> rfl)) rfl

theorem num_read_15 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 15) = xs1 (lane 15) + tileNum x0 x1 x2 15 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay390, shapeCast_self]
  exact congrArg₂ (· + ·) (congrArg xs1 (funext fun a => by fin_cases a <;> rfl)) rfl

theorem num_read_16 (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane 16) = xs1 (lane 16) + tileNum x0 x1 x2 16 := by
  unfold kernelRun0_C.sl.HS1_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay415, shapeCast_self]
  exact congrArg₂ (· + ·) (congrArg xs1 (funext fun a => by fin_cases a <;> rfl)) rfl

theorem num_read (f : arg6.view.ty.Contents (Elt Ideal)) :
    arg6.view.read (Elt Ideal) (arg6.view.writes (Elt Ideal) f (kernelRun0_C.sl.HS1_17 c arg1 harg1 arg2 harg2 arg3 harg3 arg6 harg6 x0 x1 x2 xs1)) (lane k) = xs1 (lane k) + tileNum x0 x1 x2 k := by
  fin_cases k
  · exact num_read_0 c arg1 harg1 arg2 harg2 arg3 harg3 arg6 harg6 x0 x1 x2 xs1 f
  · exact num_read_1 c arg1 harg1 arg2 harg2 arg3 harg3 arg6 harg6 x0 x1 x2 xs1 f
  · exact num_read_2 c arg1 harg1 arg2 harg2 arg3 harg3 arg6 harg6 x0 x1 x2 xs1 f
  · exact num_read_3 c arg1 harg1 arg2 harg2 arg3 harg3 arg6 harg6 x0 x1 x2 xs1 f
  · exact num_read_4 c arg1 harg1 arg2 harg2 arg3 harg3 arg6 harg6 x0 x1 x2 xs1 f
  · exact num_read_5 c arg1 harg1 arg2 harg2 arg3 harg3 arg6 harg6 x0 x1 x2 xs1 f
  · exact num_read_6 c arg1 harg1 arg2 harg2 arg3 harg3 arg6 harg6 x0 x1 x2 xs1 f
  · exact num_read_7 c arg1 harg1 arg2 harg2 arg3 harg3 arg6 harg6 x0 x1 x2 xs1 f
  · exact num_read_8 c arg1 harg1 arg2 harg2 arg3 harg3 arg6 harg6 x0 x1 x2 xs1 f
  · exact num_read_9 c arg1 harg1 arg2 harg2 arg3 harg3 arg6 harg6 x0 x1 x2 xs1 f
  · exact num_read_10 c arg1 harg1 arg2 harg2 arg3 harg3 arg6 harg6 x0 x1 x2 xs1 f
  · exact num_read_11 c arg1 harg1 arg2 harg2 arg3 harg3 arg6 harg6 x0 x1 x2 xs1 f
  · exact num_read_12 c arg1 harg1 arg2 harg2 arg3 harg3 arg6 harg6 x0 x1 x2 xs1 f
  · exact num_read_13 c arg1 harg1 arg2 harg2 arg3 harg3 arg6 harg6 x0 x1 x2 xs1 f
  · exact num_read_14 c arg1 harg1 arg2 harg2 arg3 harg3 arg6 harg6 x0 x1 x2 xs1 f
  · exact num_read_15 c arg1 harg1 arg2 harg2 arg3 harg3 arg6 harg6 x0 x1 x2 xs1 f
  · exact num_read_16 c arg1 harg1 arg2 harg2 arg3 harg3 arg6 harg6 x0 x1 x2 xs1 f

theorem den_read_0 (f : arg7.view.ty.Contents (Elt Ideal)) :
    arg7.view.read (Elt Ideal) (arg7.view.writes (Elt Ideal) f (kernelRun0_C.sl.HS2_17 c arg2 harg2 arg3 harg3 arg7 harg7 x1 x2 xs2)) (lane 0) = xs2 (lane 0) + tileDen x1 x2 0 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay33, shapeCast_self]
  exact congrArg₂ (· + ·) (congrArg xs2 (funext fun a => by fin_cases a <;> rfl)) rfl

theorem den_read_1 (f : arg7.view.ty.Contents (Elt Ideal)) :
    arg7.view.read (Elt Ideal) (arg7.view.writes (Elt Ideal) f (kernelRun0_C.sl.HS2_17 c arg2 harg2 arg3 harg3 arg7 harg7 x1 x2 xs2)) (lane 1) = xs2 (lane 1) + tileDen x1 x2 1 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay53, shapeCast_self]
  exact congrArg₂ (· + ·) (congrArg xs2 (funext fun a => by fin_cases a <;> rfl)) rfl

theorem den_read_2 (f : arg7.view.ty.Contents (Elt Ideal)) :
    arg7.view.read (Elt Ideal) (arg7.view.writes (Elt Ideal) f (kernelRun0_C.sl.HS2_17 c arg2 harg2 arg3 harg3 arg7 harg7 x1 x2 xs2)) (lane 2) = xs2 (lane 2) + tileDen x1 x2 2 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay81, shapeCast_self]
  exact congrArg₂ (· + ·) (congrArg xs2 (funext fun a => by fin_cases a <;> rfl)) rfl

theorem den_read_3 (f : arg7.view.ty.Contents (Elt Ideal)) :
    arg7.view.read (Elt Ideal) (arg7.view.writes (Elt Ideal) f (kernelRun0_C.sl.HS2_17 c arg2 harg2 arg3 harg3 arg7 harg7 x1 x2 xs2)) (lane 3) = xs2 (lane 3) + tileDen x1 x2 3 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay98, shapeCast_self]
  exact congrArg₂ (· + ·) (congrArg xs2 (funext fun a => by fin_cases a <;> rfl)) rfl

theorem den_read_4 (f : arg7.view.ty.Contents (Elt Ideal)) :
    arg7.view.read (Elt Ideal) (arg7.view.writes (Elt Ideal) f (kernelRun0_C.sl.HS2_17 c arg2 harg2 arg3 harg3 arg7 harg7 x1 x2 xs2)) (lane 4) = xs2 (lane 4) + tileDen x1 x2 4 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay127, shapeCast_self]
  exact congrArg₂ (· + ·) (congrArg xs2 (funext fun a => by fin_cases a <;> rfl)) rfl

theorem den_read_5 (f : arg7.view.ty.Contents (Elt Ideal)) :
    arg7.view.read (Elt Ideal) (arg7.view.writes (Elt Ideal) f (kernelRun0_C.sl.HS2_17 c arg2 harg2 arg3 harg3 arg7 harg7 x1 x2 xs2)) (lane 5) = xs2 (lane 5) + tileDen x1 x2 5 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay143, shapeCast_self]
  exact congrArg₂ (· + ·) (congrArg xs2 (funext fun a => by fin_cases a <;> rfl)) rfl

theorem den_read_6 (f : arg7.view.ty.Contents (Elt Ideal)) :
    arg7.view.read (Elt Ideal) (arg7.view.writes (Elt Ideal) f (kernelRun0_C.sl.HS2_17 c arg2 harg2 arg3 harg3 arg7 harg7 x1 x2 xs2)) (lane 6) = xs2 (lane 6) + tileDen x1 x2 6 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay172, shapeCast_self]
  exact congrArg₂ (· + ·) (congrArg xs2 (funext fun a => by fin_cases a <;> rfl)) rfl

theorem den_read_7 (f : arg7.view.ty.Contents (Elt Ideal)) :
    arg7.view.read (Elt Ideal) (arg7.view.writes (Elt Ideal) f (kernelRun0_C.sl.HS2_17 c arg2 harg2 arg3 harg3 arg7 harg7 x1 x2 xs2)) (lane 7) = xs2 (lane 7) + tileDen x1 x2 7 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay197, shapeCast_self]
  exact congrArg₂ (· + ·) (congrArg xs2 (funext fun a => by fin_cases a <;> rfl)) rfl

theorem den_read_8 (f : arg7.view.ty.Contents (Elt Ideal)) :
    arg7.view.read (Elt Ideal) (arg7.view.writes (Elt Ideal) f (kernelRun0_C.sl.HS2_17 c arg2 harg2 arg3 harg3 arg7 harg7 x1 x2 xs2)) (lane 8) = xs2 (lane 8) + tileDen x1 x2 8 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay219, shapeCast_self]
  exact congrArg₂ (· + ·) (congrArg xs2 (funext fun a => by fin_cases a <;> rfl)) rfl

theorem den_read_9 (f : arg7.view.ty.Contents (Elt Ideal)) :
    arg7.view.read (Elt Ideal) (arg7.view.writes (Elt Ideal) f (kernelRun0_C.sl.HS2_17 c arg2 harg2 arg3 harg3 arg7 harg7 x1 x2 xs2)) (lane 9) = xs2 (lane 9) + tileDen x1 x2 9 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay247, k0_pay246, shapeCast_self]
  exact congrArg₂ (· + ·) (congrArg xs2 (funext fun a => by fin_cases a <;> rfl)) rfl

theorem den_read_10 (f : arg7.view.ty.Contents (Elt Ideal)) :
    arg7.view.read (Elt Ideal) (arg7.view.writes (Elt Ideal) f (kernelRun0_C.sl.HS2_17 c arg2 harg2 arg3 harg3 arg7 harg7 x1 x2 xs2)) (lane 10) = xs2 (lane 10) + tileDen x1 x2 10 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay264, shapeCast_self]
  exact congrArg₂ (· + ·) (congrArg xs2 (funext fun a => by fin_cases a <;> rfl)) rfl

theorem den_read_11 (f : arg7.view.ty.Contents (Elt Ideal)) :
    arg7.view.read (Elt Ideal) (arg7.view.writes (Elt Ideal) f (kernelRun0_C.sl.HS2_17 c arg2 harg2 arg3 harg3 arg7 harg7 x1 x2 xs2)) (lane 11) = xs2 (lane 11) + tileDen x1 x2 11 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay293, shapeCast_self]
  exact congrArg₂ (· + ·) (congrArg xs2 (funext fun a => by fin_cases a <;> rfl)) rfl

theorem den_read_12 (f : arg7.view.ty.Contents (Elt Ideal)) :
    arg7.view.read (Elt Ideal) (arg7.view.writes (Elt Ideal) f (kernelRun0_C.sl.HS2_17 c arg2 harg2 arg3 harg3 arg7 harg7 x1 x2 xs2)) (lane 12) = xs2 (lane 12) + tileDen x1 x2 12 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay311, shapeCast_self]
  exact congrArg₂ (· + ·) (congrArg xs2 (funext fun a => by fin_cases a <;> rfl)) rfl

theorem den_read_13 (f : arg7.view.ty.Contents (Elt Ideal)) :
    arg7.view.read (Elt Ideal) (arg7.view.writes (Elt Ideal) f (kernelRun0_C.sl.HS2_17 c arg2 harg2 arg3 harg3 arg7 harg7 x1 x2 xs2)) (lane 13) = xs2 (lane 13) + tileDen x1 x2 13 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay341, shapeCast_self]
  exact congrArg₂ (· + ·) (congrArg xs2 (funext fun a => by fin_cases a <;> rfl)) rfl

theorem den_read_14 (f : arg7.view.ty.Contents (Elt Ideal)) :
    arg7.view.read (Elt Ideal) (arg7.view.writes (Elt Ideal) f (kernelRun0_C.sl.HS2_17 c arg2 harg2 arg3 harg3 arg7 harg7 x1 x2 xs2)) (lane 14) = xs2 (lane 14) + tileDen x1 x2 14 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay367, shapeCast_self]
  exact congrArg₂ (· + ·) (congrArg xs2 (funext fun a => by fin_cases a <;> rfl)) rfl

theorem den_read_15 (f : arg7.view.ty.Contents (Elt Ideal)) :
    arg7.view.read (Elt Ideal) (arg7.view.writes (Elt Ideal) f (kernelRun0_C.sl.HS2_17 c arg2 harg2 arg3 harg3 arg7 harg7 x1 x2 xs2)) (lane 15) = xs2 (lane 15) + tileDen x1 x2 15 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay391, shapeCast_self]
  exact congrArg₂ (· + ·) (congrArg xs2 (funext fun a => by fin_cases a <;> rfl)) rfl

theorem den_read_16 (f : arg7.view.ty.Contents (Elt Ideal)) :
    arg7.view.read (Elt Ideal) (arg7.view.writes (Elt Ideal) f (kernelRun0_C.sl.HS2_17 c arg2 harg2 arg3 harg3 arg7 harg7 x1 x2 xs2)) (lane 16) = xs2 (lane 16) + tileDen x1 x2 16 := by
  unfold kernelRun0_C.sl.HS2_17
  repeat rw [View.read_writes_cons_unit_of_not_mem _ _ _ _ _ _ rfl 1 (Or.inl (by decide))]
  rw [View.read_writes_cons_unit_of_mem _ _ _ _ _ _ (ix2 0 0) rfl (by decide)]
  sl_unfold_words
  simp only [View.readAt_eq_ld, Memref.IsWhole.read_unread, View.ld_unit_zero (S := S4x51x64x64) hz4, View.ld_unit_zero (S := S1x4x17) hz3]
  simp only [k0_pay1, k0_pay416, shapeCast_self]
  exact congrArg₂ (· + ·) (congrArg xs2 (funext fun a => by fin_cases a <;> rfl)) rfl

theorem den_read (f : arg7.view.ty.Contents (Elt Ideal)) :
    arg7.view.read (Elt Ideal) (arg7.view.writes (Elt Ideal) f (kernelRun0_C.sl.HS2_17 c arg2 harg2 arg3 harg3 arg7 harg7 x1 x2 xs2)) (lane k) = xs2 (lane k) + tileDen x1 x2 k := by
  fin_cases k
  · exact den_read_0 c arg2 harg2 arg3 harg3 arg7 harg7 x1 x2 xs2 f
  · exact den_read_1 c arg2 harg2 arg3 harg3 arg7 harg7 x1 x2 xs2 f
  · exact den_read_2 c arg2 harg2 arg3 harg3 arg7 harg7 x1 x2 xs2 f
  · exact den_read_3 c arg2 harg2 arg3 harg3 arg7 harg7 x1 x2 xs2 f
  · exact den_read_4 c arg2 harg2 arg3 harg3 arg7 harg7 x1 x2 xs2 f
  · exact den_read_5 c arg2 harg2 arg3 harg3 arg7 harg7 x1 x2 xs2 f
  · exact den_read_6 c arg2 harg2 arg3 harg3 arg7 harg7 x1 x2 xs2 f
  · exact den_read_7 c arg2 harg2 arg3 harg3 arg7 harg7 x1 x2 xs2 f
  · exact den_read_8 c arg2 harg2 arg3 harg3 arg7 harg7 x1 x2 xs2 f
  · exact den_read_9 c arg2 harg2 arg3 harg3 arg7 harg7 x1 x2 xs2 f
  · exact den_read_10 c arg2 harg2 arg3 harg3 arg7 harg7 x1 x2 xs2 f
  · exact den_read_11 c arg2 harg2 arg3 harg3 arg7 harg7 x1 x2 xs2 f
  · exact den_read_12 c arg2 harg2 arg3 harg3 arg7 harg7 x1 x2 xs2 f
  · exact den_read_13 c arg2 harg2 arg3 harg3 arg7 harg7 x1 x2 xs2 f
  · exact den_read_14 c arg2 harg2 arg3 harg3 arg7 harg7 x1 x2 xs2 f
  · exact den_read_15 c arg2 harg2 arg3 harg3 arg7 harg7 x1 x2 xs2 f
  · exact den_read_16 c arg2 harg2 arg3 harg3 arg7 harg7 x1 x2 xs2 f

end Cert.KernelIdeal.LanesC
end
-- ==== Proof.LanesC.lean ====
import proofs.«405258_j67929202754306_4_alg».proof.Proof.Gen.KernelIdeal.Frame
import proofs.«405258_j67929202754306_4_alg».proof.Proof.Tile
import proofs.«405258_j67929202754306_4_alg».proof.Proof.LanesCRead
import proofs.«405258_j67929202754306_4_alg».proof.Proof.SumLaws
import Idealize.ShloMosaic.Lib.Pipeline.Value
import Idealize.ShloMosaic.Lib.WritesUnit
import Idealize.ShloMosaic.Lib.Tactic
import Idealize.ShloMosaic.Lib.ValueIdx

set_option maxRecDepth 16384

noncomputable section
open Idealize.ShloMosaic Idealize.ShloMosaic.TcCoe Idealize.SL.Sem
open Idealize.ShloMosaic.ValueIdx
namespace Cert.KernelIdeal.LanesC
open Cert.KernelIdeal Cert.KernelIdeal.Gen Cert.KernelIdeal.Tile Cert.Loss

variable (k : Fin 17) (c : Dev nD) (i : grid0.Coords)
  (arg1 : Memref sig .tc .vmem S4x51x64x64 .f32) (harg1 : arg1.IsWhole) (arg2 : Memref sig .tc .vmem S4x51x64x64 .f32) (harg2 : arg2.IsWhole)
  (arg3 : Memref sig .tc .vmem S1x4x17 .f32) (harg3 : arg3.IsWhole) (arg4 : Memref sig .tc .vmem S1x1 .f32) (harg4 : arg4.IsWhole)
  (arg5 : Memref sig .tc .vmem S8x128 .f32) (harg5 : arg5.IsWhole) (arg6 : Memref sig .tc .vmem S8x128 .f32) (harg6 : arg6.IsWhole)
  (arg7 : Memref sig .tc .vmem S8x128 .f32) (harg7 : arg7.IsWhole) (hc0 : ¬cond0_0 i) (hc1 : cond0_1 i)
  (x0 x1 : Vec Ideal S4x51x64x64 .f32) (x2 : Vec Ideal S1x4x17 .f32)
  (xs0 xs1 xs2 : Vec Ideal S8x128 .f32)

theorem sq_lane : sout0_C_0 c i arg1 harg1 arg2 harg2 arg3 harg3 arg4 harg4 arg5 harg5 arg6 harg6 arg7 harg7 hc0 hc1 x0 x1 x2 xs0 xs1 xs2 (lane k) = xs0 (lane k) + tileSq x0 x1 x2 k :=
  sq_read k c arg1 harg1 arg2 harg2 arg3 harg3 arg5 harg5 x0 x1 x2 xs0 (harg5.unread xs0)
theorem num_lane : sout0_C_1 c i arg1 harg1 arg2 harg2 arg3 harg3 arg4 harg4 arg5 harg5 arg6 harg6 arg7 harg7 hc0 hc1 x0 x1 x2 xs0 xs1 xs2 (lane k) = xs1 (lane k) + tileNum x0 x1 x2 k :=
  num_read k c arg1 harg1 arg2 harg2 arg3 harg3 arg6 harg6 x0 x1 x2 xs1 (harg6.unread xs1)
theorem den_lane : sout0_C_2 c i arg1 harg1 arg2 harg2 arg3 harg3 arg4 harg4 arg5 harg5 arg6 harg6 arg7 harg7 hc0 hc1 x0 x1 x2 xs0 xs1 xs2 (lane k) = xs2 (lane k) + tileDen x1 x2 k :=
  den_read k c arg2 harg2 arg3 harg3 arg7 harg7 x1 x2 xs2 (harg7.unread xs2)

theorem ldIdx (k : Fin 17) :
    (Rect.unit (s := S8x128) ![0, 0] ![1, 17] inb_S8x128_S1x17_0_0).toLoadRect.idx
        (show (Rect.unit (s := S8x128) ![0, 0] ![1, 17] inb_S8x128_S1x17_0_0).toLoadRect.shape.Idx from ix2 (0 : Fin 1) k) = lane k :=
  funext fun a => by
    match a with
    | ⟨0, _⟩ => exact Fin.ext (by show 0 + 1 * 0 = 0; rfl)
    | ⟨1, _⟩ => exact Fin.ext (by show 0 + 1 * k.val = k.val; omega)

/-- The closing load of lanes 0 to 16 reads, at position k, lane k after the stores. -/
theorem sq_ld : kernelRun0_C.sl.v2173 c arg1 harg1 arg2 harg2 arg3 harg3 arg5 harg5 x0 x1 x2 xs0 (ix2 0 k) = xs0 (lane k) + tileSq x0 x1 x2 k :=
  (congrArg (arg5.view.read (Elt Ideal) (arg5.view.writes (Elt Ideal) arg5.view.junk (kernelRun0_C.sl.HS0_17 c arg1 harg1 arg2 harg2 arg3 harg3 arg5 harg5 x0 x1 x2 xs0))) (ldIdx k)).trans (sq_read k c arg1 harg1 arg2 harg2 arg3 harg3 arg5 harg5 x0 x1 x2 xs0 _)
theorem num_ld : kernelRun0_C.sl.v2178 c arg1 harg1 arg2 harg2 arg3 harg3 arg6 harg6 x0 x1 x2 xs1 (ix2 0 k) = xs1 (lane k) + tileNum x0 x1 x2 k :=
  (congrArg (arg6.view.read (Elt Ideal) (arg6.view.writes (Elt Ideal) arg6.view.junk (kernelRun0_C.sl.HS1_17 c arg1 harg1 arg2 harg2 arg3 harg3 arg6 harg6 x0 x1 x2 xs1))) (ldIdx k)).trans (num_read k c arg1 harg1 arg2 harg2 arg3 harg3 arg6 harg6 x0 x1 x2 xs1 _)
theorem den_ld : kernelRun0_C.sl.v2179 c arg2 harg2 arg3 harg3 arg7 harg7 x1 x2 xs2 (ix2 0 k) = xs2 (lane k) + tileDen x1 x2 k :=
  (congrArg (arg7.view.read (Elt Ideal) (arg7.view.writes (Elt Ideal) arg7.view.junk (kernelRun0_C.sl.HS2_17 c arg2 harg2 arg3 harg3 arg7 harg7 x1 x2 xs2))) (ldIdx k)).trans (den_read k c arg2 harg2 arg3 harg3 arg7 harg7 x1 x2 xs2 _)

theorem sum_lanes (V : FVec Ideal S1x17 .f32) (hφ : FKind.Formats FTy.f32)
    (hacc : (0x00000000#32 : BitVec FTy.f32.bits) = FKind.add.neutral .f32 hφ) :
    extractAt ![0, 0, 0]
        (shapeCast S1x1x1 (multiReduction .add [1, 2] S1 (shapeCast S1x1x17 V shapeCasts_S1x17_S1x1x17) 0x00000000#32
          reduces_S1x1x17_S1 hφ hacc) shapeCasts_S1_S1x1x1) inpos_S1x1x1_p0_0_0
      = ∑ k : Fin 17, V (ix2 0 k) := by
  unfold extractAt
  rw [shapeCast_apply (s := S1) (t := S1x1x1) _ shapeCasts_S1_S1x1x1 (fun a => ⟨![0, 0, 0] a, inpos_S1x1x1_p0_0_0 a⟩) (ix1 (0 : Fin 1))
    (by first | rfl | (rw [Shape.rowMajor_val_one, Shape.rowMajor_val_three]; rfl) | decide)]
  show Ideal.reduceAdd reduces_S1x1x17_S1 (shapeCast S1x1x17 V shapeCasts_S1x17_S1x1x17) (ix1 0) = _
  rw [Cert.SumLaws.reduce_joints]
  refine Finset.sum_congr rfl fun k _ => ?_
  rw [shapeCast_addUnit_apply ![1, 17]]
  exact congrArg V (funext fun a => by fin_cases a <;> rfl)

/-- The last point stores the loss formed from the three loaded vectors, lane by lane. -/
theorem out_eq : out0_C_3 c i arg1 harg1 arg2 harg2 arg3 harg3 arg4 harg4 arg5 harg5 arg6 harg6 arg7 harg7 hc0 hc1 x0 x1 x2 xs0 xs1 xs2 (ix2 0 0)
      = finalOf (fun k => xs0 (lane k) + tileSq x0 x1 x2 k) (fun k => xs1 (lane k) + tileNum x0 x1 x2 k)
          (fun k => xs2 (lane k) + tileDen x1 x2 k) := by
  unfold out0_C_3 kernelRun0_C
  dsimp only
  rw [View.read_writes_cons_unit_of_mem _ _ _ _ _ _ (ix2 0 0) rfl (by decide)]
  unfold finalOf
  refine (congrArg (fun t => Ideal.div t jointsC * oneC) ((sum_lanes _ _ _).trans (Finset.sum_congr rfl fun k _ => ?_)))
  show _ = jointTerm (xs0 (lane k) + tileSq x0 x1 x2 k) (xs1 (lane k) + tileNum x0 x1 x2 k) (xs2 (lane k) + tileDen x1 x2 k)
  rw [← sq_ld k c arg1 harg1 arg2 harg2 arg3 harg3 arg5 harg5 x0 x1 x2 xs0, ← num_ld k c arg1 harg1 arg2 harg2 arg3 harg3 arg6 harg6 x0 x1 x2 xs1, ← den_ld k c arg2 harg2 arg3 harg3 arg7 harg7 x1 x2 xs2]
  rfl

end Cert.KernelIdeal.LanesC
end
-- ==== Proof.KernFlush.lean ====
import proofs.«405258_j67929202754306_4_alg».proof.Proof.Gen.KernelIdeal.Frame
import proofs.«405258_j67929202754306_4_alg».proof.Proof.Tile
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KernFlush

open Cert.KernelIdeal Cert.KernelIdeal.Gen

variable (m : (ℓ : Loc nD τ sig) → Buf (Elt Ideal) ℓ) (ρ : Dev nD → PrngReg)

theorem lastLt : 15 < cfg0.N := by rw [show cfg0.N = 16 from N_0]; decide

theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem idx1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)

/-- Tile t holds batch rows 4t … 4t+3 of the array. -/
theorem blk0_apply (c : Dev nD) (t : Fin cfg0.N) (bb : Fin 4) (ch : Fin 51) (r cc : Fin 64) :
    (iblk m c 0 t : Vec Ideal S4x51x64x64 .f32) (ix4 bb ch r cc)
      = (m ((c.tc : Thread nD τ).loc main_arg0) : S64x51x64x64.Idx → EReal)
          (ix4 ⟨4 * t.val + bb.val, by have := lt_of_lt_of_eq t.isLt (show cfg0.N = 16 from N_0); have := bb.isLt; omega⟩ ch r cc) := by
  show V m c main_arg0 (((cfg0.win 0).blk t).view.emb (ix4 bb ch r cc)) = _
  refine (congrFun (V_main_arg0 m c) _).trans ?_
  refine congrArg (m ((c.tc : Thread nD τ).loc main_arg0) : S64x51x64x64.Idx → EReal) ?_
  obtain ⟨e0, e1, e2, e3⟩ := idx0 t
  funext a; apply Fin.ext
  match a with
  | ⟨0, _⟩ => show win0_0.index t (0 : Fin 4) * 4 + 1 * bb.val = 4 * t.val + bb.val; omega
  | ⟨1, _⟩ => show win0_0.index t (1 : Fin 4) * 51 + 1 * ch.val = ch.val; omega
  | ⟨2, _⟩ => show win0_0.index t (2 : Fin 4) * 64 + 1 * r.val = r.val; omega
  | ⟨3, _⟩ => show win0_0.index t (3 : Fin 4) * 64 + 1 * cc.val = cc.val; omega

theorem blk1_apply (c : Dev nD) (t : Fin cfg0.N) (bb : Fin 4) (ch : Fin 51) (r cc : Fin 64) :
    (iblk m c 1 t : Vec Ideal S4x51x64x64 .f32) (ix4 bb ch r cc)
      = (m ((c.tc : Thread nD τ).loc main_arg1) : S64x51x64x64.Idx → EReal)
          (ix4 ⟨4 * t.val + bb.val, by have := lt_of_lt_of_eq t.isLt (show cfg0.N = 16 from N_0); have := bb.isLt; omega⟩ ch r cc) := by
  show V m c main_arg1 (((cfg0.win 1).blk t).view.emb (ix4 bb ch r cc)) = _
  refine (congrFun (V_main_arg1 m c) _).trans ?_
  refine congrArg (m ((c.tc : Thread nD τ).loc main_arg1) : S64x51x64x64.Idx → EReal) ?_
  obtain ⟨e0, e1, e2, e3⟩ := idx1 t
  funext a; apply Fin.ext
  match a with
  | ⟨0, _⟩ => show win0_1.index t (0 : Fin 4) * 4 + 1 * bb.val = 4 * t.val + bb.val; omega
  | ⟨1, _⟩ => show win0_1.index t (1 : Fin 4) * 51 + 1 * ch.val = ch.val; omega
  | ⟨2, _⟩ => show win0_1.index t (2 : Fin 4) * 64 + 1 * r.val = r.val; omega
  | ⟨3, _⟩ => show win0_1.index t (3 : Fin 4) * 64 + 1 * cc.val = cc.val; omega

theorem v0_eq (c : Dev nD) :
    (V m c main_v0 : S16x4x17.Idx → EReal)
      = shapeCast S16x4x17 (m ((c.tc : Thread nD τ).loc main_arg2) : S64x17.Idx → EReal) shapeCasts_S64x17_S16x4x17 := by
  show StableHlo.after hostOps0 (fun b => m (c, b)) (Proc.devRef .tc main_v0) = _
  after_results
  rfl

theorem blk2_apply (c : Dev nD) (t : Fin cfg0.N) (bb : Fin 4) (k : Fin 17) :
    (iblk m c 2 t : Vec Ideal S1x4x17 .f32) (ix3 0 bb k)
      = (m ((c.tc : Thread nD τ).loc main_arg2) : S64x17.Idx → EReal)
          (ix2 ⟨4 * t.val + bb.val, by have := lt_of_lt_of_eq t.isLt (show cfg0.N = 16 from N_0); have := bb.isLt; omega⟩ k) := by
  show V m c main_v0 (((cfg0.win 2).blk t).view.emb (ix3 0 bb k)) = _
  refine (congrFun (v0_eq m c) _).trans ?_
  refine shapeCast_apply (s := S64x17) (t := S16x4x17) _ _ _ _ ?_
  obtain ⟨e0, e1, e2⟩ := idx2 t
  refine (Shape.rowMajor_val_two (d := ![64, 17]) _).trans ((Shape.rowMajor_val_three (d := ![16, 4, 17]) _).trans ?_).symm
  show ((win0_2.index t (0 : Fin 3) * 1 + 1 * 0) * 4 + (win0_2.index t (1 : Fin 3) * 4 + 1 * bb.val)) * 17
      + (win0_2.index t (2 : Fin 3) * 17 + 1 * k.val) = (4 * t.val + bb.val) * 17 + k.val
  omega

theorem idx3 : ∀ t : Fin cfg0.N, win0_3.index t (0 : Fin 2) = 0 ∧ win0_3.index t (1 : Fin 2) = 0 :=
  (by decide +kernel : ∀ t : Fin grid0.N, _)

theorem outs_congr (c : Dev nD) (n : ℕ) (hn : n < cfg0.N) (e : n = 15) :
    (outsAt0 m c n hn).1 = (outsAt0 m c 15 lastLt).1 := by
  subst e; rfl

theorem cut3_eq_read (t : Fin cfg0.N) (G : Vec Ideal S1x1 .f32) :
    (cfg0.win 3).cut (grid0.coords t) G = ((cfg0.win 3).blk t).view.read (Elt Ideal) G := by
  obtain ⟨e0, e1⟩ := idx3 t
  funext y
  show G ((cfg0.win 3).xinj (grid0.coords t) y) = G (((cfg0.win 3).blk t).view.emb y)
  refine congrArg G ?_
  funext a; apply Fin.ext
  match a with
  | ⟨0, _⟩ => show (y 0).val = win0_3.index t (0 : Fin 2) * 1 + 1 * (y 0).val; omega
  | ⟨1, _⟩ => show (y 1).val = win0_3.index t (1 : Fin 2) * 1 + 1 * (y 1).val; omega

theorem flushed3_eq (c : Dev nD) (t : Fin cfg0.N) (hf : (cfg0.win 3).flush t = true) :
    (dats m 0 c).flushed 3 t = ((cfg0.win 3).blk t).view.read (Elt Ideal) ((outsAt0 m c 15 lastLt).1) := by
  have hN : cfg0.N = 16 := N_0
  have h15 : t.val = 15 := by have := (flush0_3 t).mp hf; have := t.isLt; omega
  show (cfg0.win 3).cut (grid0.coords t) ((dats m 0 c).after 3 t) = _
  rw [after0_3, outs_congr m c t.val t.isLt h15]
  exact cut3_eq_read t _

theorem mem_blk3 (t : Fin cfg0.N) (i : S1x1.Idx) :
    i ∈ ((cfg0.win 3).blk t).view.set
      ↔ ∀ a : Fin 2, win0_3.index t a * S1x1.size a ≤ (i a).val ∧ (i a).val < win0_3.index t a * S1x1.size a + S1x1.size a := by
  show i ∈ ((View.whole main_v1).slice (win0_3.rect t)).set ↔ _
  rw [View.set_slice_whole, Rect.mem_set_unit]
  exact Iff.rfl

theorem final3 (c : Dev nD) : (dats m 0 c).arrAt 3 cfg0.N = (outsAt0 m c 15 lastLt).1 :=
  (dats m 0 c).arrAt_eq_of_cover 3 ((outsAt0 m c 15 lastLt).1) (flushed3_eq m c) fun i =>
    ⟨⟨15, lastLt⟩, (flush0_3 _).mpr rfl, by
      rw [mem_blk3]
      obtain ⟨e0, e1⟩ := idx3 ⟨15, lastLt⟩
      have h0 : (i 0).val < 1 := (i 0).isLt
      have h1 : (i 1).val < 1 := (i 1).isLt
      intro a
      match a with
      | ⟨0, _⟩ => show win0_3.index ⟨15, lastLt⟩ (0 : Fin 2) * 1 ≤ (i 0).val ∧ (i 0).val < win0_3.index ⟨15, lastLt⟩ (0 : Fin 2) * 1 + 1; omega
      | ⟨1, _⟩ => show win0_3.index ⟨15, lastLt⟩ (1 : Fin 2) * 1 ≤ (i 1).val ∧ (i 1).val < win0_3.index ⟨15, lastLt⟩ (1 : Fin 2) * 1 + 1; omega⟩

theorem tail_eq (c : Dev nD) :
    Pipeline.afterTail₀ cfgs (dats m) 0 (V0 m) [hostOps1] c main_v2 = (fun _ => (outsAt0 m c 15 lastLt).1 (ix2 0 0)) := by
  have e := Pipeline.withArrays_arr spec0 launch0.win.arr_inj c (V0 m c) (fun w => (dats m 0 c).arrAt w cfg0.N) 3
  unfold Pipeline.afterTail₀
  show StableHlo.after hostOps1 _ (Proc.devRef .tc main_v2) = _
  after_results
  funext j
  show shapeCast S_ (Pipeline.withArrays spec0 c (V0 m c) (fun w => (dats m 0 c).arrAt w cfg0.N)
      (Proc.devRef .tc (Pipeline.arrRef spec0 3))) shapeCasts_S1x1_S_ j = _
  rw [e, final3]
  refine shapeCast_apply (s := S1x1) (t := S_) _ _ _ (ix2 0 0) ?_
  refine (Shape.rowMajor_val_two (d := ![1, 1]) _).trans ?_
  have h := (S_.rowMajor j).isLt
  have hn : S_.numel = 1 := Shape.numel_eq_one fun a => a.elim0
  show 0 * 1 + 0 = _
  omega

/-- The program ends with the one number the last point stored, its arguments untouched. -/
theorem run_out (v : Dev nD → EReal)
    (hv : ∀ c : Dev nD, ((outsAt0 m c 15 lastLt).1 : S1x1.Idx → EReal) (ix2 0 0) = v c) :
    θ_run (defs (F := Ideal)) (onTc (τ := τ) (main (F := Ideal))) ⟨m, fun _ => 0, ρ⟩ (fun r => ∀ c : Dev nD,
      r.2.mem ((c.tc : Thread nD τ).loc main_v2) = (fun _ => v c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans
        ((tail_eq m c).trans (funext fun _ => hv c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernFlush

end
-- ==== Proof.KernAcc.lean ====
import proofs.«405258_j67929202754306_4_alg».proof.Proof.Gen.KernelIdeal.Frame
import proofs.«405258_j67929202754306_4_alg».proof.Proof.Tile
import proofs.«405258_j67929202754306_4_alg».proof.Proof.SumLaws
import proofs.«405258_j67929202754306_4_alg».proof.Proof.LanesA
import proofs.«405258_j67929202754306_4_alg».proof.Proof.LanesB
import proofs.«405258_j67929202754306_4_alg».proof.Proof.LanesC
import proofs.«405258_j67929202754306_4_alg».proof.Proof.KernFlush
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KernAcc

open Cert.KernelIdeal Cert.KernelIdeal.Gen Cert.KernelIdeal.Tile Cert.KernelIdeal.KernFlush Cert.Loss

variable (m : (ℓ : Loc nD τ sig) → Buf (Elt Ideal) ℓ)

abbrev blkX (c : Dev nD) (t : Fin cfg0.N) : Vec Ideal S4x51x64x64 .f32 := iblk m c 0 t
abbrev blkY (c : Dev nD) (t : Fin cfg0.N) : Vec Ideal S4x51x64x64 .f32 := iblk m c 1 t
abbrev blkW (c : Dev nD) (t : Fin cfg0.N) : Vec Ideal S1x4x17 .f32 := iblk m c 2 t

def cSq (c : Dev nD) (k : Fin 17) (t : ℕ) : EReal :=
  if h : t < cfg0.N then tileSq (blkX m c ⟨t, h⟩) (blkY m c ⟨t, h⟩) (blkW m c ⟨t, h⟩) k else 0
def cNum (c : Dev nD) (k : Fin 17) (t : ℕ) : EReal :=
  if h : t < cfg0.N then tileNum (blkX m c ⟨t, h⟩) (blkY m c ⟨t, h⟩) (blkW m c ⟨t, h⟩) k else 0
def cDen (c : Dev nD) (k : Fin 17) (t : ℕ) : EReal :=
  if h : t < cfg0.N then tileDen (blkY m c ⟨t, h⟩) (blkW m c ⟨t, h⟩) k else 0

def accSq (c : Dev nD) (k : Fin 17) (n : ℕ) : EReal := zeroC + ∑ t ∈ Finset.range (n + 1), cSq m c k t
def accNum (c : Dev nD) (k : Fin 17) (n : ℕ) : EReal := zeroC + ∑ t ∈ Finset.range (n + 1), cNum m c k t
def accDen (c : Dev nD) (k : Fin 17) (n : ℕ) : EReal := zeroC + ∑ t ∈ Finset.range (n + 1), cDen m c k t

theorem acc_zero (g : ℕ → EReal) : zeroC + ∑ t ∈ Finset.range (0 + 1), g t = zeroC + g 0 := by
  rw [Finset.sum_range_one]

theorem acc_succ (g : ℕ → EReal) (n : ℕ) :
    zeroC + ∑ t ∈ Finset.range (n + 1 + 1), g t = (zeroC + ∑ t ∈ Finset.range (n + 1), g t) + g (n + 1) := by
  rw [Finset.sum_range_succ, add_assoc]

/-- After point n, lane k holds joint k's terms of tiles 0 … n: the first point starts from zero, each later one adds. -/
theorem lanes_eq (c : Dev nD) : ∀ (n : ℕ) (h : n < cfg0.N) (k : Fin 17),
    ((outsAt0 m c n h).2.1 : S8x128.Idx → EReal) (lane k) = accSq m c k n
    ∧ ((outsAt0 m c n h).2.2.1 : S8x128.Idx → EReal) (lane k) = accNum m c k n
    ∧ ((outsAt0 m c n h).2.2.2 : S8x128.Idx → EReal) (lane k) = accDen m c k n
  | 0, h, k => by
    have h0 : (⟨0, h⟩ : Fin cfg0.N).val % 16 = 0 := rfl
    have h1 : ¬(⟨0, h⟩ : Fin cfg0.N).val % 16 = 15 := by dsimp only; omega
    rw [outsAt0_A m c ⟨0, h⟩ h0 h1]
    dsimp only
    refine ⟨?_, ?_, ?_⟩
    · rw [LanesA.sq_lane]; unfold accSq; rw [acc_zero]; unfold cSq; rw [dif_pos h]
    · rw [LanesA.num_lane]; unfold accNum; rw [acc_zero]; unfold cNum; rw [dif_pos h]
    · rw [LanesA.den_lane]; unfold accDen; rw [acc_zero]; unfold cDen; rw [dif_pos h]
  | n + 1, h, k => by
    have hN : n + 1 < 16 := lt_of_lt_of_eq h (show cfg0.N = 16 from N_0)
    have ih := fun k' => lanes_eq c n (Nat.lt_of_succ_lt h) k'
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      refine ⟨?_, ?_, ?_⟩
      · rw [LanesC.sq_lane]; unfold accSq; rw [acc_succ, ← accSq]
        refine congrArg₂ (· + ·) ((ih k).1) ?_
        unfold cSq; rw [dif_pos h]
      · rw [LanesC.num_lane]; unfold accNum; rw [acc_succ, ← accNum]
        refine congrArg₂ (· + ·) ((ih k).2.1) ?_
        unfold cNum; rw [dif_pos h]
      · rw [LanesC.den_lane]; unfold accDen; rw [acc_succ, ← accDen]
        refine congrArg₂ (· + ·) ((ih k).2.2) ?_
        unfold cDen; rw [dif_pos h]
    · rw [outsAt0_B m c ⟨n + 1, h⟩ h0 h1]
      dsimp only
      refine ⟨?_, ?_, ?_⟩
      · rw [LanesB.sq_lane]; unfold accSq; rw [acc_succ, ← accSq]
        refine congrArg₂ (· + ·) ((ih k).1) ?_
        unfold cSq; rw [dif_pos h]
      · rw [LanesB.num_lane]; unfold accNum; rw [acc_succ, ← accNum]
        refine congrArg₂ (· + ·) ((ih k).2.1) ?_
        unfold cNum; rw [dif_pos h]
      · rw [LanesB.den_lane]; unfold accDen; rw [acc_succ, ← accDen]
        refine congrArg₂ (· + ·) ((ih k).2.2) ?_
        unfold cDen; rw [dif_pos h]

abbrev argX (c : Dev nD) : SX.Idx → EReal := m ((c.tc : Thread nD τ).loc main_arg0)
abbrev argY (c : Dev nD) : SX.Idx → EReal := m ((c.tc : Thread nD τ).loc main_arg1)
abbrev argW (c : Dev nD) : SW.Idx → EReal := m ((c.tc : Thread nD τ).loc main_arg2)

theorem last_eq (c : Dev nD) : ((outsAt0 m c 15 lastLt).1 : S1x1.Idx → EReal) (ix2 0 0)
    = finalOf (fun k => accSq m c k 15) (fun k => accNum m c k 15) (fun k => accDen m c k 15) := by
  have h0 : ¬(⟨15, lastLt⟩ : Fin cfg0.N).val % 16 = 0 := by decide
  have h1 : (⟨15, lastLt⟩ : Fin cfg0.N).val % 16 = 15 := rfl
  have ih := fun k' => lanes_eq m c 14 (Nat.lt_of_succ_lt lastLt) k'
  rw [outsAt0_C m c ⟨15, lastLt⟩ h0 h1]
  dsimp only
  rw [LanesC.out_eq]
  have e0 : ∀ k, accSq m c k 15 = accSq m c k 14 + tileSq (blkX m c ⟨15, lastLt⟩) (blkY m c ⟨15, lastLt⟩) (blkW m c ⟨15, lastLt⟩) k := fun k => by
    unfold accSq; rw [acc_succ]; refine congrArg₂ (· + ·) rfl ?_; unfold cSq; rw [dif_pos lastLt]
  have e1 : ∀ k, accNum m c k 15 = accNum m c k 14 + tileNum (blkX m c ⟨15, lastLt⟩) (blkY m c ⟨15, lastLt⟩) (blkW m c ⟨15, lastLt⟩) k := fun k => by
    unfold accNum; rw [acc_succ]; refine congrArg₂ (· + ·) rfl ?_; unfold cNum; rw [dif_pos lastLt]
  have e2 : ∀ k, accDen m c k 15 = accDen m c k 14 + tileDen (blkY m c ⟨15, lastLt⟩) (blkW m c ⟨15, lastLt⟩) k := fun k => by
    unfold accDen; rw [acc_succ]; refine congrArg₂ (· + ·) rfl ?_; unfold cDen; rw [dif_pos lastLt]
  simp only [e0, e1, e2]
  refine congrArg₂ (fun a b => a * b) (congrArg₂ Ideal.div (Finset.sum_congr rfl fun k _ => ?_) rfl) rfl
  dsimp only
  rw [← (ih k).1, ← (ih k).2.1, ← (ih k).2.2]

theorem tileSq_arg (c : Dev nD) (t : Fin cfg0.N) (k : Fin 17) :
    tileSq (blkX m c t) (blkY m c t) (blkW m c t) k
      = ∑ bb : Fin 4, ∑ r : Fin 64, ∑ cc : Fin 64, sqAt (argX m c) (argY m c) (argW m c)
          ⟨4 * t.val + bb.val, by have := lt_of_lt_of_eq t.isLt (show cfg0.N = 16 from N_0); have := bb.isLt; omega⟩ k r cc := by
  rw [tileSq_eq]
  refine Finset.sum_congr rfl fun bb _ => Finset.sum_congr rfl fun r _ => Finset.sum_congr rfl fun cc _ => ?_
  unfold sqAt blkX blkY blkW
  rw [blk0_apply, blk1_apply, blk2_apply]

theorem tileDen_arg (c : Dev nD) (t : Fin cfg0.N) (k : Fin 17) :
    tileDen (blkY m c t) (blkW m c t) k
      = ∑ bb : Fin 4, ∑ r : Fin 64, ∑ cc : Fin 64, maskAt (argY m c) (argW m c)
          ⟨4 * t.val + bb.val, by have := lt_of_lt_of_eq t.isLt (show cfg0.N = 16 from N_0); have := bb.isLt; omega⟩ k r cc := by
  rw [tileDen_eq]
  refine Finset.sum_congr rfl fun bb _ => Finset.sum_congr rfl fun r _ => Finset.sum_congr rfl fun cc _ => ?_
  unfold maskAt blkY blkW
  rw [blk1_apply, blk2_apply]

theorem tileNum_arg (c : Dev nD) (t : Fin cfg0.N) (k : Fin 17) :
    tileNum (blkX m c t) (blkY m c t) (blkW m c t) k
      = ∑ bb : Fin 4, ∑ r : Fin 64, ∑ cc : Fin 64, numAt (argX m c) (argY m c) (argW m c)
          ⟨4 * t.val + bb.val, by have := lt_of_lt_of_eq t.isLt (show cfg0.N = 16 from N_0); have := bb.isLt; omega⟩ k r cc := by
  rw [tileNum_eq]
  refine Finset.sum_congr rfl fun bb _ => Finset.sum_congr rfl fun r _ => Finset.sum_congr rfl fun cc _ => ?_
  unfold numAt maskAt blkX blkY blkW
  rw [blk0_apply, blk0_apply, blk1_apply, blk1_apply, blk1_apply, blk2_apply]

theorem sum_range_grid (g : Fin cfg0.N → EReal) :
    ∑ t ∈ Finset.range (15 + 1), (if h : t < cfg0.N then g ⟨t, h⟩ else 0)
      = ∑ t : Fin 16, g ⟨t.val, lt_of_lt_of_eq t.isLt (show cfg0.N = 16 from N_0).symm⟩ := by
  rw [Finset.sum_range]
  refine Finset.sum_congr rfl fun t _ => ?_
  rw [dif_pos (lt_of_lt_of_eq t.isLt (show cfg0.N = 16 from N_0).symm)]

theorem accSq_last (c : Dev nD) (k : Fin 17) : accSq m c k 15 = zeroC + sumSq (argX m c) (argY m c) (argW m c) k := by
  unfold accSq cSq
  rw [sum_range_grid (fun t => tileSq (blkX m c t) (blkY m c t) (blkW m c t) k)]
  simp only [tileSq_arg]
  rw [Cert.SumLaws.sum_tiles (fun b => ∑ r : Fin 64, ∑ cc : Fin 64, sqAt (argX m c) (argY m c) (argW m c) b k r cc)]
  rfl

theorem accNum_last (c : Dev nD) (k : Fin 17) : accNum m c k 15 = zeroC + sumNum (argX m c) (argY m c) (argW m c) k := by
  unfold accNum cNum
  rw [sum_range_grid (fun t => tileNum (blkX m c t) (blkY m c t) (blkW m c t) k)]
  simp only [tileNum_arg]
  rw [Cert.SumLaws.sum_tiles (fun b => ∑ r : Fin 64, ∑ cc : Fin 64, numAt (argX m c) (argY m c) (argW m c) b k r cc)]
  rfl

theorem accDen_last (c : Dev nD) (k : Fin 17) : accDen m c k 15 = zeroC + sumDen (argY m c) (argW m c) k := by
  unfold accDen cDen
  rw [sum_range_grid (fun t => tileDen (blkY m c t) (blkW m c t) k)]
  simp only [tileDen_arg]
  rw [Cert.SumLaws.sum_tiles (fun b => ∑ r : Fin 64, ∑ cc : Fin 64, maskAt (argY m c) (argW m c) b k r cc)]
  rfl

/-- The kernel's number is the loss of the argument arrays. -/
theorem result_eq (c : Dev nD) : ((outsAt0 m c 15 lastLt).1 : S1x1.Idx → EReal) (ix2 0 0)
    = total (argX m c) (argY m c) (argW m c) := by
  rw [last_eq, total_eq_finalOf]
  simp only [accSq_last, accNum_last, accDen_last, Cert.SumLaws.zeroC_eq, zero_add]

theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = (fun _ => total (argX m c) (argY m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_out m ρ (fun c => total (argX m c) (argY m c) (argW m c)) (result_eq m)

end Cert.KernelIdeal.KernAcc

end
-- ==== Proof.RefTerm.lean ====
import proofs.«405258_j67929202754306_4_alg».proof.Proof.Gen.ReferenceIdeal
import proofs.«405258_j67929202754306_4_alg».proof.ReferenceIdeal

noncomputable section

namespace Cert.ReferenceIdeal.RefTerm

open Cert.ReferenceIdeal Cert.ReferenceIdeal.Gen Idealize.ShloMosaic

variable {F : FTy → Type} [FloatOps F]

def regroup (X : Vec F S64x51x64x64 .f32) : Vec F S64x17x3x4096 .f32 :=
  shapeCast S64x17x3x4096 X shapeCasts_S64x51x64x64_S64x17x3x4096

def v3 (X : Vec F S64x51x64x64 .f32) : Vec F S64x17x4096 .f32 :=
  shapeCast S64x17x4096 (extractStridedSlice S64x17x1x4096 ![0, 0, 0, 0] (regroup X) slices_S64x17x3x4096_S64x17x1x4096_0_0_0_0)
    shapeCasts_S64x17x1x4096_S64x17x4096

def v5 (X : Vec F S64x51x64x64 .f32) : Vec F S64x17x4096 .f32 :=
  shapeCast S64x17x4096 (extractStridedSlice S64x17x1x4096 ![0, 0, 1, 0] (regroup X) slices_S64x17x3x4096_S64x17x1x4096_0_0_1_0)
    shapeCasts_S64x17x1x4096_S64x17x4096

def v7 (X : Vec F S64x51x64x64 .f32) : Vec F S64x17x4096 .f32 :=
  shapeCast S64x17x4096 (extractStridedSlice S64x17x1x4096 ![0, 0, 2, 0] (regroup X) slices_S64x17x3x4096_S64x17x1x4096_0_0_2_0)
    shapeCasts_S64x17x1x4096_S64x17x4096

def v9 (Y : Vec F S64x51x64x64 .f32) : Vec F S64x17x4096 .f32 :=
  shapeCast S64x17x4096 (extractStridedSlice S64x17x1x4096 ![0, 0, 0, 0] (regroup Y) slices_S64x17x3x4096_S64x17x1x4096_0_0_0_0)
    shapeCasts_S64x17x1x4096_S64x17x4096

def v11 (Y : Vec F S64x51x64x64 .f32) : Vec F S64x17x4096 .f32 :=
  shapeCast S64x17x4096 (extractStridedSlice S64x17x1x4096 ![0, 0, 1, 0] (regroup Y) slices_S64x17x3x4096_S64x17x1x4096_0_0_1_0)
    shapeCasts_S64x17x1x4096_S64x17x4096

def v13 (Y : Vec F S64x51x64x64 .f32) : Vec F S64x17x4096 .f32 :=
  shapeCast S64x17x4096 (extractStridedSlice S64x17x1x4096 ![0, 0, 2, 0] (regroup Y) slices_S64x17x3x4096_S64x17x1x4096_0_0_2_0)
    shapeCasts_S64x17x1x4096_S64x17x4096

def v15 (W : Vec F S64x17 .f32) : Vec F S64x17x4096 .f32 :=
  broadcastInDim S64x17x4096 ![0, 1, 2] bcast_S64x17x1_S64x17x4096_0_1_2
    (broadcastInDim S64x17x1 ![0, 1] bcast_S64x17_S64x17x1_0_1 W)

def v16 (X : Vec F S64x51x64x64 .f32) (W : Vec F S64x17 .f32) : Vec F S64x17x4096 .f32 :=
  mulf (v3 X) (v15 W)

def v18 (Y : Vec F S64x51x64x64 .f32) (W : Vec F S64x17 .f32) : Vec F S64x17x4096 .f32 :=
  mulf (v9 Y) (v15 W)

def v19 (X Y : Vec F S64x51x64x64 .f32) (W : Vec F S64x17 .f32) : Vec F S64x17x4096 .f32 :=
  subf (v16 X W) (v18 Y W)

def v20 (X Y : Vec F S64x51x64x64 .f32) (W : Vec F S64x17 .f32) : Vec F S64x17x4096 .f32 :=
  mulf (v19 X Y W) (v19 X Y W)

def v21 (X Y : Vec F S64x51x64x64 .f32) (W : Vec F S64x17 .f32) : Vec F S17 .f32 :=
  Host.reduceAdd (v20 X Y W) (constant S_ .f32 0x00000000#32) reducesTo_S64x17x4096_S17_d0_2 h_S_

def v25 (X Y : Vec F S64x51x64x64 .f32) (W : Vec F S64x17 .f32) : Vec F S17 .f32 :=
  mulf (broadcastInDim S17 ![] bcast_S_S17 (constant S_ .f32 0x3F000000#32))
    (Host.divf (v21 X Y W) (broadcastInDim S17 ![] bcast_S_S17 (constant S_ .f32 0x48800000#32)))

def pos : IVec S4096 32 := iotaInDim S4096 32 0

def along {α : Type} (c : S_.Idx → α) : S4096.Idx → α := broadcastInDim S4096 ![] bcast_S_S4096 c

def fdDivisor : IVec S_ 32 := id (constantI S_ 32 64#32)

def fdQuot : IVec S4096 32 := Host.divsi pos (along fdDivisor)

def fdAdjust : IVec S4096 1 :=
  andi (cmpi .ne (signi pos) (along (signi fdDivisor)))
    (cmpi .ne (Host.remsi pos (along fdDivisor)) (along (constantI S_ 32 0#32)))

def v27 : IVec S4096 32 :=
  select fdAdjust (subi fdQuot (along (constantI S_ 32 1#32))) fdQuot

def v28 : Vec F S4096 .f32 := sitofp .f32 v27

def rmDivisor : IVec S_ 32 := id (constantI S_ 32 64#32)

def rmSafe : IVec S_ 32 :=
  select (cmpi .eq rmDivisor (constantI S_ 32 0#32)) (constantI S_ 32 1#32) rmDivisor

def rmRem : IVec S4096 32 := Host.remsi pos (along rmSafe)

def rmAdjust : IVec S4096 1 :=
  andi (cmpi .ne (cmpi .slt rmRem (along (constantI S_ 32 0#32))) (along (cmpi .slt rmSafe (constantI S_ 32 0#32))))
    (cmpi .ne rmRem (along (constantI S_ 32 0#32)))

def v29 : IVec S4096 32 :=
  select rmAdjust (addi rmRem (along rmSafe)) rmRem

def v30 : Vec F S4096 .f32 := sitofp .f32 v29

def spread (u : Vec F S4096 .f32) : Vec F S64x17x4096 .f32 :=
  broadcastInDim S64x17x4096 ![0, 1, 2] bcast_S1x1x4096_S64x17x4096_0_1_2
    (broadcastInDim S1x1x4096 ![2] bcast_S4096_S1x1x4096_2 u)

def v33 (X : Vec F S64x51x64x64 .f32) : Vec F S64x17x4096 .f32 := addf (spread v28) (v5 X)
def v36 (X : Vec F S64x51x64x64 .f32) : Vec F S64x17x4096 .f32 := addf (spread v30) (v7 X)
def v39 (X : Vec F S64x51x64x64 .f32) : Vec F S64x17x4096 .f32 := minimumf (spread v28) (v33 X)
def v42 (X : Vec F S64x51x64x64 .f32) : Vec F S64x17x4096 .f32 := minimumf (spread v30) (v36 X)
def v45 (X : Vec F S64x51x64x64 .f32) : Vec F S64x17x4096 .f32 := maximumf (spread v28) (v33 X)
def v48 (X : Vec F S64x51x64x64 .f32) : Vec F S64x17x4096 .f32 := maximumf (spread v30) (v36 X)
def v51 (Y : Vec F S64x51x64x64 .f32) : Vec F S64x17x4096 .f32 := addf (spread v28) (v11 Y)
def v54 (Y : Vec F S64x51x64x64 .f32) : Vec F S64x17x4096 .f32 := addf (spread v30) (v13 Y)
def v57 (Y : Vec F S64x51x64x64 .f32) : Vec F S64x17x4096 .f32 := minimumf (spread v28) (v51 Y)
def v60 (Y : Vec F S64x51x64x64 .f32) : Vec F S64x17x4096 .f32 := minimumf (spread v30) (v54 Y)
def v63 (Y : Vec F S64x51x64x64 .f32) : Vec F S64x17x4096 .f32 := maximumf (spread v28) (v51 Y)
def v66 (Y : Vec F S64x51x64x64 .f32) : Vec F S64x17x4096 .f32 := maximumf (spread v30) (v54 Y)

def clipFloor : Vec F S64x17x4096 .f32 :=
  broadcastInDim S64x17x4096 ![] bcast_S_S64x17x4096 (id (constant S_ .f32 0x00000000#32))

def v70 (X Y : Vec F S64x51x64x64 .f32) : Vec F S64x17x4096 .f32 :=
  maximumf clipFloor (subf (minimumf (v45 X) (v63 Y)) (maximumf (v39 X) (v57 Y)))

def v74 (X Y : Vec F S64x51x64x64 .f32) : Vec F S64x17x4096 .f32 :=
  maximumf clipFloor (subf (minimumf (v48 X) (v66 Y)) (maximumf (v42 X) (v60 Y)))

def v75 (X Y : Vec F S64x51x64x64 .f32) : Vec F S64x17x4096 .f32 := mulf (v70 X Y) (v74 X Y)

def tiny : Vec F S64x17x4096 .f32 :=
  broadcastInDim S64x17x4096 ![] bcast_S_S64x17x4096 (constant S_ .f32 0x33D6BF95#32)

def v85 (X Y : Vec F S64x51x64x64 .f32) : Vec F S64x17x4096 .f32 :=
  addf (subf (addf (mulf (subf (v45 X) (v39 X)) (subf (v48 X) (v42 X)))
                    (mulf (subf (v63 Y) (v57 Y)) (subf (v66 Y) (v60 Y))))
             (v75 X Y))
       tiny

def v94 (X Y : Vec F S64x51x64x64 .f32) : Vec F S64x17x4096 .f32 :=
  addf (mulf (subf (maximumf (v45 X) (v63 Y)) (minimumf (v39 X) (v57 Y)))
             (subf (maximumf (v48 X) (v66 Y)) (minimumf (v42 X) (v60 Y))))
       tiny

def v100 (X Y : Vec F S64x51x64x64 .f32) : Vec F S64x17x4096 .f32 :=
  subf (broadcastInDim S64x17x4096 ![] bcast_S_S64x17x4096 (constant S_ .f32 0x3F800000#32))
    (subf (Host.divf (v75 X Y) (v85 X Y)) (Host.divf (subf (v94 X Y) (v85 X Y)) (v94 X Y)))

def v103 (Y : Vec F S64x51x64x64 .f32) (W : Vec F S64x17 .f32) : Vec F S64x17x4096 .f32 :=
  uitofp .f32 (cmpf .une (v18 Y W)
    (broadcastInDim S64x17x4096 ![] bcast_S_S64x17x4096 (constant S_ .f32 0x00000000#32)))

def v104 (X Y : Vec F S64x51x64x64 .f32) (W : Vec F S64x17 .f32) : Vec F S64x17x4096 .f32 :=
  mulf (v100 X Y) (v103 Y W)

def v105 (X Y : Vec F S64x51x64x64 .f32) (W : Vec F S64x17 .f32) : Vec F S17 .f32 :=
  Host.reduceAdd (v104 X Y W) (constant S_ .f32 0x00000000#32) reducesTo_S64x17x4096_S17_d0_2 h_S_

def v106 (Y : Vec F S64x51x64x64 .f32) (W : Vec F S64x17 .f32) : Vec F S17 .f32 :=
  Host.reduceAdd (v103 Y W) (constant S_ .f32 0x00000000#32) reducesTo_S64x17x4096_S17_d0_2 h_S_

def v109 (X Y : Vec F S64x51x64x64 .f32) (W : Vec F S64x17 .f32) : Vec F S17 .f32 :=
  Host.divf (v105 X Y W)
    (maximumf (v106 Y W) (broadcastInDim S17 ![] bcast_S_S17 (constant S_ .f32 0x3F800000#32)))

def v110 (X Y : Vec F S64x51x64x64 .f32) (W : Vec F S64x17 .f32) : Vec F S17 .f32 :=
  addf (v25 X Y W) (v109 X Y W)

def v111 (X Y : Vec F S64x51x64x64 .f32) (W : Vec F S64x17 .f32) : Vec F S_ .f32 :=
  Host.reduceAdd (v110 X Y W) (constant S_ .f32 0x00000000#32) reducesTo_S17_S_d0 h_S_

/-- The reference's result as one term of the three arrays. -/
def out (X Y : Vec F S64x51x64x64 .f32) (W : Vec F S64x17 .f32) : Vec F S_ .f32 :=
  mulf (Host.divf (v111 X Y W) (constant S_ .f32 0x41880000#32)) (constant S_ .f32 0x3F800000#32)

end Cert.ReferenceIdeal.RefTerm

end
-- ==== Proof.RefRun.lean ====
import proofs.«405258_j67929202754306_4_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev c1 : List (HloOp τ sig (Elt F)) :=
  [ StableHlo.reshape main_arg0 main_v0 rfl shapeCasts_S64x51x64x64_S64x17x3x4096,
    StableHlo.reshape main_arg1 main_v1 rfl shapeCasts_S64x51x64x64_S64x17x3x4096,
    StableHlo.unary main_v0 main_v2 ((extractStridedSlice S64x17x1x4096 ![0, 0, 0, 0] · slices_S64x17x3x4096_S64x17x1x4096_0_0_0_0) : (⟨S64x17x3x4096, .f32⟩ : BufTy).Contents (Elt F) → (⟨S64x17x1x4096, .f32⟩ : BufTy).Contents (Elt F)),
    StableHlo.reshape main_v2 main_v3 rfl shapeCasts_S64x17x1x4096_S64x17x4096,
    StableHlo.unary main_v0 main_v4 ((extractStridedSlice S64x17x1x4096 ![0, 0, 1, 0] · slices_S64x17x3x4096_S64x17x1x4096_0_0_1_0) : (⟨S64x17x3x4096, .f32⟩ : BufTy).Contents (Elt F) → (⟨S64x17x1x4096, .f32⟩ : BufTy).Contents (Elt F)),
    StableHlo.reshape main_v4 main_v5 rfl shapeCasts_S64x17x1x4096_S64x17x4096,
    StableHlo.unary main_v0 main_v6 ((extractStridedSlice S64x17x1x4096 ![0, 0, 2, 0] · slices_S64x17x3x4096_S64x17x1x4096_0_0_2_0) : (⟨S64x17x3x4096, .f32⟩ : BufTy).Contents (Elt F) → (⟨S64x17x1x4096, .f32⟩ : BufTy).Contents (Elt F)),
    StableHlo.reshape main_v6 main_v7 rfl shapeCasts_S64x17x1x4096_S64x17x4096,
    StableHlo.unary main_v1 main_v8 ((extractStridedSlice S64x17x1x4096 ![0, 0, 0, 0] · slices_S64x17x3x4096_S64x17x1x4096_0_0_0_0) : (⟨S64x17x3x4096, .f32⟩ : BufTy).Contents (Elt F) → (⟨S64x17x1x4096, .f32⟩ : BufTy).Contents (Elt F)),
    StableHlo.reshape main_v8 main_v9 rfl shapeCasts_S64x17x1x4096_S64x17x4096,
    StableHlo.unary main_v1 main_v10 ((extractStridedSlice S64x17x1x4096 ![0, 0, 1, 0] · slices_S64x17x3x4096_S64x17x1x4096_0_0_1_0) : (⟨S64x17x3x4096, .f32⟩ : BufTy).Contents (Elt F) → (⟨S64x17x1x4096, .f32⟩ : BufTy).Contents (Elt F)),
    StableHlo.reshape main_v10 main_v11 rfl shapeCasts_S64x17x1x4096_S64x17x4096,
    StableHlo.unary main_v1 main_v12 ((extractStridedSlice S64x17x1x4096 ![0, 0, 2, 0] · slices_S64x17x3x4096_S64x17x1x4096_0_0_2_0) : (⟨S64x17x3x4096, .f32⟩ : BufTy).Contents (Elt F) → (⟨S64x17x1x4096, .f32⟩ : BufTy).Contents (Elt F)),
    StableHlo.reshape main_v12 main_v13 rfl shapeCasts_S64x17x1x4096_S64x17x4096 ]

abbrev c2 : List (HloOp τ sig (Elt F)) :=
  [ StableHlo.unary main_arg2 main_v14 (broadcastInDim S64x17x1 ![0, 1] bcast_S64x17_S64x17x1_0_1 : (⟨S64x17, .f32⟩ : BufTy).Contents (Elt F) → (⟨S64x17x1, .f32⟩ : BufTy).Contents (Elt F)),
    StableHlo.unary main_v14 main_v15 (broadcastInDim S64x17x4096 ![0, 1, 2] bcast_S64x17x1_S64x17x4096_0_1_2 : (⟨S64x17x1, .f32⟩ : BufTy).Contents (Elt F) → (⟨S64x17x4096, .f32⟩ : BufTy).Contents (Elt F)),
    StableHlo.binary main_v3 main_v15 main_v16 (mulf : (⟨S64x17x4096, .f32⟩ : BufTy).Contents (Elt F) → (⟨S64x17x4096, .f32⟩ : BufTy).Contents (Elt F) → (⟨S64x17x4096, .f32⟩ : BufTy).Contents (Elt F)),
    StableHlo.unary main_v14 main_v17 (broadcastInDim S64x17x4096 ![0, 1, 2] bcast_S64x17x1_S64x17x4096_0_1_2 : (⟨S64x17x1, .f32⟩ : BufTy).Contents (Elt F) → (⟨S64x17x4096, .f32⟩ : BufTy).Contents (Elt F)),
    StableHlo.binary main_v9 main_v17 main_v18 (mulf : (⟨S64x17x4096, .f32⟩ : BufTy).Contents (Elt F) → (⟨S64x17x4096, .f32⟩ : BufTy).Contents (Elt F) → (⟨S64x17x4096, .f32⟩ : BufTy).Contents (Elt F)),
    StableHlo.binary main_v16 main_v18 main_v19 (subf : (⟨S64x17x4096, .f32⟩ : BufTy).Contents (Elt F) → (⟨S64x17x4096, .f32⟩ : BufTy).Contents (Elt F) → (⟨S64x17x4096, .f32⟩ : BufTy).Contents (Elt F)),
    StableHlo.binary main_v19 main_v19 main_v20 (mulf : (⟨S64x17x4096, .f32⟩ : BufTy).Contents (Elt F) → (⟨S64x17x4096, .f32⟩ : BufTy).Contents (Elt F) → (⟨S64x17x4096, .f32⟩ : BufTy).Contents (Elt F)),
    StableHlo.nullary main_cst (constant S_ .f32 0x00000000#32),
    StableHlo.binary main_v20 main_cst main_v21 ((fun x v => Host.reduceAdd x v reducesTo_S64x17x4096_S17_d0_2 h_S_) : (⟨S64x17x4096, .f32⟩ : BufTy).Contents (Elt F) → (⟨S_, .f32⟩ : BufTy).Contents (Elt F) → (⟨S17, .f32⟩ : BufTy).Contents (Elt F)),
    StableHlo.nullary main_cst_0 (constant S_ .f32 0x48800000#32),
    StableHlo.unary main_cst_0 main_v22 (broadcastInDim S17 ![] bcast_S_S17 : (⟨S_, .f32⟩ : BufTy).Contents (Elt F) → (⟨S17, .f32⟩ : BufTy).Contents (Elt F)),
    StableHlo.binary main_v21 main_v22 main_v23 (Host.divf : (⟨S17, .f32⟩ : BufTy).Contents (Elt F) → (⟨S17, .f32⟩ : BufTy).Contents (Elt F) → (⟨S17, .f32⟩ : BufTy).Contents (Elt F)),
    StableHlo.nullary main_cst_1 (constant S_ .f32 0x3F000000#32),
    StableHlo.unary main_cst_1 main_v24 (broadcastInDim S17 ![] bcast_S_S17 : (⟨S_, .f32⟩ : BufTy).Contents (Elt F) → (⟨S17, .f32⟩ : BufTy).Contents (Elt F)),
    StableHlo.binary main_v24 main_v23 main_v25 (mulf : (⟨S17, .f32⟩ : BufTy).Contents (Elt F) → (⟨S17, .f32⟩ : BufTy).Contents (Elt F) → (⟨S17, .f32⟩ : BufTy).Contents (Elt F)) ]

abbrev c3 : List (HloOp τ sig (Elt F)) :=
  [ StableHlo.nullary main_v26 (iotaInDim S4096 32 0),
    StableHlo.nullary main_c (constantI S_ 32 64#32),
    StableHlo.TRef.unary (.of main_c : StableHlo.TRef sig ⟨S_, .i32⟩) main_call0.v0 id,
    StableHlo.TRef.unary main_call0.v0 main_call0.v1 (broadcastInDim S4096 ![] bcast_S_S4096),
    StableHlo.TRef.binary (.of main_v26 : StableHlo.TRef sig ⟨S4096, .i32⟩) main_call0.v1 main_call0.v2 Host.divsi ]

abbrev c4 : List (HloOp τ sig (Elt F)) :=
  [ StableHlo.TRef.unary (.of main_v26 : StableHlo.TRef sig ⟨S4096, .i32⟩) main_call0.v3 signi,
    StableHlo.TRef.unary main_call0.v0 main_call0.v4 signi,
    StableHlo.TRef.unary main_call0.v4 main_call0.v5 (broadcastInDim S4096 ![] bcast_S_S4096),
    StableHlo.TRef.binary main_call0.v3 main_call0.v5 main_call0.v6 (cmpi .ne),
    StableHlo.TRef.unary main_call0.v0 main_call0.v7 (broadcastInDim S4096 ![] bcast_S_S4096),
    StableHlo.TRef.binary (.of main_v26 : StableHlo.TRef sig ⟨S4096, .i32⟩) main_call0.v7 main_call0.v8 Host.remsi,
    StableHlo.TRef.nullary main_call0.c (constantI S_ 32 0#32),
    StableHlo.TRef.unary main_call0.c main_call0.v9 (broadcastInDim S4096 ![] bcast_S_S4096),
    StableHlo.TRef.binary main_call0.v8 main_call0.v9 main_call0.v10 (cmpi .ne),
    StableHlo.TRef.binary main_call0.v6 main_call0.v10 main_call0.v11 andi ]

abbrev c5 : List (HloOp τ sig (Elt F)) :=
  [ StableHlo.TRef.nullary main_call0.c_0 (constantI S_ 32 1#32),
    StableHlo.TRef.unary main_call0.c_0 main_call0.v12 (broadcastInDim S4096 ![] bcast_S_S4096),
    StableHlo.TRef.binary main_call0.v2 main_call0.v12 main_call0.v13 subi,
    StableHlo.TRef.ternary main_call0.v11 main_call0.v13 main_call0.v2 main_call0.call0.v0 select,
    StableHlo.unary main_v27 main_v28 (sitofp .f32 : (⟨S4096, .i32⟩ : BufTy).Contents (Elt F) → (⟨S4096, .f32⟩ : BufTy).Contents (Elt F)) ]

abbrev c6 : List (HloOp τ sig (Elt F)) :=
  [ StableHlo.nullary main_c_2 (constantI S_ 32 64#32),
    StableHlo.TRef.unary (.of main_c_2 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S4096 ![] bcast_S_S4096),
    StableHlo.TRef.binary (.of main_v26 : StableHlo.TRef sig ⟨S4096, .i32⟩) main_call1.v3 main_call1.v4 Host.remsi ]

abbrev c7 : List (HloOp τ sig (Elt F)) :=
  [ StableHlo.TRef.nullary main_call1.c_1 (constantI S_ 32 0#32),
    StableHlo.TRef.unary main_call1.c_1 main_call1.v5 (broadcastInDim S4096 ![] bcast_S_S4096),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S4096 ![] bcast_S_S4096),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S4096 ![] bcast_S_S4096),
    StableHlo.TRef.binary main_call1.v8 main_call1.v10 main_call1.v11 (cmpi .ne),
    StableHlo.TRef.binary main_call1.v11 main_call1.v6 main_call1.v12 andi ]

abbrev c8 : List (HloOp τ sig (Elt F)) :=
  [ StableHlo.TRef.unary main_call1.call0.v0 main_call1.v13 (broadcastInDim S4096 ![] bcast_S_S4096),
    StableHlo.TRef.binary main_call1.v4 main_call1.v13 main_call1.v14 addi,
    StableHlo.TRef.ternary main_call1.v12 main_call1.v14 main_call1.v4 main_call1.v15 select,
    StableHlo.unary main_v29 main_v30 (sitofp .f32 : (⟨S4096, .i32⟩ : BufTy).Contents (Elt F) → (⟨S4096, .f32⟩ : BufTy).Contents (Elt F)) ]

abbrev c9 : List (HloOp τ sig (Elt F)) :=
  [ StableHlo.unary main_v28 main_v31 (broadcastInDim S1x1x4096 ![2] bcast_S4096_S1x1x4096_2 : (⟨S4096, .f32⟩ : BufTy).Contents (Elt F) → (⟨S1x1x4096, .f32⟩ : BufTy).Contents (Elt F)),
    StableHlo.unary main_v31 main_v32 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v32 main_v5 main_v33 (addf : (⟨S64x17x4096, .f32⟩ : BufTy).Contents (Elt F) → (⟨S64x17x4096, .f32⟩ : BufTy).Contents (Elt F) → (⟨S64x17x4096, .f32⟩ : BufTy).Contents (Elt F)),
    StableHlo.unary main_v30 main_v34 (broadcastInDim S1x1x4096 ![2] bcast_S4096_S1x1x4096_2 : (⟨S4096, .f32⟩ : BufTy).Contents (Elt F) → (⟨S1x1x4096, .f32⟩ : BufTy).Contents (Elt F)),
    StableHlo.unary main_v34 main_v35 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v35 main_v7 main_v36 (addf : (⟨S64x17x4096, .f32⟩ : BufTy).Contents (Elt F) → (⟨S64x17x4096, .f32⟩ : BufTy).Contents (Elt F) → (⟨S64x17x4096, .f32⟩ : BufTy).Contents (Elt F)),
    StableHlo.unary main_v28 main_v37 (broadcastInDim S1x1x4096 ![2] bcast_S4096_S1x1x4096_2 : (⟨S4096, .f32⟩ : BufTy).Contents (Elt F) → (⟨S1x1x4096, .f32⟩ : BufTy).Contents (Elt F)),
    StableHlo.unary main_v37 main_v38 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v38 main_v33 main_v39 (minimumf : (⟨S64x17x4096, .f32⟩ : BufTy).Contents (Elt F) → (⟨S64x17x4096, .f32⟩ : BufTy).Contents (Elt F) → (⟨S64x17x4096, .f32⟩ : BufTy).Contents (Elt F)),
    StableHlo.unary main_v30 main_v40 (broadcastInDim S1x1x4096 ![2] bcast_S4096_S1x1x4096_2 : (⟨S4096, .f32⟩ : BufTy).Contents (Elt F) → (⟨S1x1x4096, .f32⟩ : BufTy).Contents (Elt F)),
    StableHlo.unary main_v40 main_v41 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v41 main_v36 main_v42 (minimumf : (⟨S64x17x4096, .f32⟩ : BufTy).Contents (Elt F) → (⟨S64x17x4096, .f32⟩ : BufTy).Contents (Elt F) → (⟨S64x17x4096, .f32⟩ : BufTy).Contents (Elt F)) ]

abbrev c10 : List (HloOp τ sig (Elt F)) :=
  [ StableHlo.unary main_v28 main_v43 (broadcastInDim S1x1x4096 ![2] bcast_S4096_S1x1x4096_2 : (⟨S4096, .f32⟩ : BufTy).Contents (Elt F) → (⟨S1x1x4096, .f32⟩ : BufTy).Contents (Elt F)),
    StableHlo.unary main_v43 main_v44 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v44 main_v33 main_v45 (maximumf : (⟨S64x17x4096, .f32⟩ : BufTy).Contents (Elt F) → (⟨S64x17x4096, .f32⟩ : BufTy).Contents (Elt F) → (⟨S64x17x4096, .f32⟩ : BufTy).Contents (Elt F)),
    StableHlo.unary main_v30 main_v46 (broadcastInDim S1x1x4096 ![2] bcast_S4096_S1x1x4096_2 : (⟨S4096, .f32⟩ : BufTy).Contents (Elt F) → (⟨S1x1x4096, .f32⟩ : BufTy).Contents (Elt F)),
    StableHlo.unary main_v46 main_v47 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v47 main_v36 main_v48 (maximumf : (⟨S64x17x4096, .f32⟩ : BufTy).Contents (Elt F) → (⟨S64x17x4096, .f32⟩ : BufTy).Contents (Elt F) → (⟨S64x17x4096, .f32⟩ : BufTy).Contents (Elt F)),
    StableHlo.unary main_v28 main_v49 (broadcastInDim S1x1x4096 ![2] bcast_S4096_S1x1x4096_2 : (⟨S4096, .f32⟩ : BufTy).Contents (Elt F) → (⟨S1x1x4096, .f32⟩ : BufTy).Contents (Elt F)),
    StableHlo.unary main_v49 main_v50 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v50 main_v11 main_v51 (addf : (⟨S64x17x4096, .f32⟩ : BufTy).Contents (Elt F) → (⟨S64x17x4096, .f32⟩ : BufTy).Contents (Elt F) → (⟨S64x17x4096, .f32⟩ : BufTy).Contents (Elt F)),
    StableHlo.unary main_v30 main_v52 (broadcastInDim S1x1x4096 ![2] bcast_S4096_S1x1x4096_2 : (⟨S4096, .f32⟩ : BufTy).Contents (Elt F) → (⟨S1x1x4096, .f32⟩ : BufTy).Contents (Elt F)),
    StableHlo.unary main_v52 main_v53 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v53 main_v13 main_v54 (addf : (⟨S64x17x4096, .f32⟩ : BufTy).Contents (Elt F) → (⟨S64x17x4096, .f32⟩ : BufTy).Contents (Elt F) → (⟨S64x17x4096, .f32⟩ : BufTy).Contents (Elt F)) ]

abbrev c11 : List (HloOp τ sig (Elt F)) :=
  [ StableHlo.unary main_v28 main_v55 (broadcastInDim S1x1x4096 ![2] bcast_S4096_S1x1x4096_2 : (⟨S4096, .f32⟩ : BufTy).Contents (Elt F) → (⟨S1x1x4096, .f32⟩ : BufTy).Contents (Elt F)),
    StableHlo.unary main_v55 main_v56 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v56 main_v51 main_v57 (minimumf : (⟨S64x17x4096, .f32⟩ : BufTy).Contents (Elt F) → (⟨S64x17x4096, .f32⟩ : BufTy).Contents (Elt F) → (⟨S64x17x4096, .f32⟩ : BufTy).Contents (Elt F)),
    StableHlo.unary main_v30 main_v58 (broadcastInDim S1x1x4096 ![2] bcast_S4096_S1x1x4096_2 : (⟨S4096, .f32⟩ : BufTy).Contents (Elt F) → (⟨S1x1x4096, .f32⟩ : BufTy).Contents (Elt F)),
    StableHlo.unary main_v58 main_v59 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v59 main_v54 main_v60 (minimumf : (⟨S64x17x4096, .f32⟩ : BufTy).Contents (Elt F) → (⟨S64x17x4096, .f32⟩ : BufTy).Contents (Elt F) → (⟨S64x17x4096, .f32⟩ : BufTy).Contents (Elt F)),
    StableHlo.unary main_v28 main_v61 (broadcastInDim S1x1x4096 ![2] bcast_S4096_S1x1x4096_2 : (⟨S4096, .f32⟩ : BufTy).Contents (Elt F) → (⟨S1x1x4096, .f32⟩ : BufTy).Contents (Elt F)),
    StableHlo.unary main_v61 main_v62 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v62 main_v51 main_v63 (maximumf : (⟨S64x17x4096, .f32⟩ : BufTy).Contents (Elt F) → (⟨S64x17x4096, .f32⟩ : BufTy).Contents (Elt F) → (⟨S64x17x4096, .f32⟩ : BufTy).Contents (Elt F)),
    StableHlo.unary main_v30 main_v64 (broadcastInDim S1x1x4096 ![2] bcast_S4096_S1x1x4096_2 : (⟨S4096, .f32⟩ : BufTy).Contents (Elt F) → (⟨S1x1x4096, .f32⟩ : BufTy).Contents (Elt F)),
    StableHlo.unary main_v64 main_v65 (broadcastInDim S64x17x4096 ![0, 1, 2] bcast_S1x1x4096_S64x17x4096_0_1_2 : (⟨S1x1x4096, .f32⟩ : BufTy).Contents (Elt F) → (⟨S64x17x4096, .f32⟩ : BufTy).Contents (Elt F)),
    StableHlo.binary main_v65 main_v54 main_v66 (maximumf : (⟨S64x17x4096, .f32⟩ : BufTy).Contents (Elt F) → (⟨S64x17x4096, .f32⟩ : BufTy).Contents (Elt F) → (⟨S64x17x4096, .f32⟩ : BufTy).Contents (Elt F)) ]

abbrev c12 : List (HloOp τ sig (Elt F)) :=
  [ StableHlo.binary main_v45 main_v63 main_v67 (minimumf : (⟨S64x17x4096, .f32⟩ : BufTy).Contents (Elt F) → (⟨S64x17x4096, .f32⟩ : BufTy).Contents (Elt F) → (⟨S64x17x4096, .f32⟩ : BufTy).Contents (Elt F)),
    StableHlo.binary main_v39 main_v57 main_v68 (maximumf : (⟨S64x17x4096, .f32⟩ : BufTy).Contents (Elt F) → (⟨S64x17x4096, .f32⟩ : BufTy).Contents (Elt F) → (⟨S64x17x4096, .f32⟩ : BufTy).Contents (Elt F)),
    StableHlo.binary main_v67 main_v68 main_v69 (subf : (⟨S64x17x4096, .f32⟩ : BufTy).Contents (Elt F) → (⟨S64x17x4096, .f32⟩ : BufTy).Contents (Elt F) → (⟨S64x17x4096, .f32⟩ : BufTy).Contents (Elt F)),
    StableHlo.nullary main_cst_3 (constant S_ .f32 0x00000000#32),
    StableHlo.TRef.unary (.of main_cst_3 : StableHlo.TRef sig ⟨S_, .f32⟩) main_call2.v0 id,
    StableHlo.TRef.unary main_call2.v0 main_call2.v1 (broadcastInDim S64x17x4096 ![] bcast_S_S64x17x4096),
    StableHlo.TRef.binary main_call2.v1 (.of main_v69 : StableHlo.TRef sig ⟨S64x17x4096, .f32⟩) main_call2.v2 maximumf ]

abbrev c13 : List (HloOp τ sig (Elt F)) :=
  [ StableHlo.binary main_v48 main_v66 main_v71 (minimumf : (⟨S64x17x4096, .f32⟩ : BufTy).Contents (Elt F) → (⟨S64x17x4096, .f32⟩ : BufTy).Contents (Elt F) → (⟨S64x17x4096, .f32⟩ : BufTy).Contents (Elt F)),
    StableHlo.binary main_v42 main_v60 main_v72 (maximumf : (⟨S64x17x4096, .f32⟩ : BufTy).Contents (Elt F) → (⟨S64x17x4096, .f32⟩ : BufTy).Contents (Elt F) → (⟨S64x17x4096, .f32⟩ : BufTy).Contents (Elt F)),
    StableHlo.binary main_v71 main_v72 main_v73 (subf : (⟨S64x17x4096, .f32⟩ : BufTy).Contents (Elt F) → (⟨S64x17x4096, .f32⟩ : BufTy).Contents (Elt F) → (⟨S64x17x4096, .f32⟩ : BufTy).Contents (Elt F)),
    StableHlo.nullary main_cst_4 (constant S_ .f32 0x00000000#32),
    StableHlo.TRef.unary (.of main_cst_4 : StableHlo.TRef sig ⟨S_, .f32⟩) main_call3.v0 id,
    StableHlo.TRef.unary main_call3.v0 main_call3.v1 (broadcastInDim S64x17x4096 ![] bcast_S_S64x17x4096),
    StableHlo.TRef.binary main_call3.v1 (.of main_v73 : StableHlo.TRef sig ⟨S64x17x4096, .f32⟩) main_call3.v2 maximumf,
    StableHlo.binary main_v70 main_v74 main_v75 (mulf : (⟨S64x17x4096, .f32⟩ : BufTy).Contents (Elt F) → (⟨S64x17x4096, .f32⟩ : BufTy).Contents (Elt F) → (⟨S64x17x4096, .f32⟩ : BufTy).Contents (Elt F)) ]

abbrev c14 : List (HloOp τ sig (Elt F)) :=
  [ StableHlo.binary main_v45 main_v39 main_v76 (subf : (⟨S64x17x4096, .f32⟩ : BufTy).Contents (Elt F) → (⟨S64x17x4096, .f32⟩ : BufTy).Contents (Elt F) → (⟨S64x17x4096, .f32⟩ : BufTy).Contents (Elt F)),
    StableHlo.binary main_v48 main_v42 main_v77 (subf : (⟨S64x17x4096, .f32⟩ : BufTy).Contents (Elt F) → (⟨S64x17x4096, .f32⟩ : BufTy).Contents (Elt F) → (⟨S64x17x4096, .f32⟩ : BufTy).Contents (Elt F)),
    StableHlo.binary main_v76 main_v77 main_v78 (mulf : (⟨S64x17x4096, .f32⟩ : BufTy).Contents (Elt F) → (⟨S64x17x4096, .f32⟩ : BufTy).Contents (Elt F) → (⟨S64x17x4096, .f32⟩ : BufTy).Contents (Elt F)),
    StableHlo.binary main_v63 main_v57 main_v79 (subf : (⟨S64x17x4096, .f32⟩ : BufTy).Contents (Elt F) → (⟨S64x17x4096, .f32⟩ : BufTy).Contents (Elt F) → (⟨S64x17x4096, .f32⟩ : BufTy).Contents (Elt F)),
    StableHlo.binary main_v66 main_v60 main_v80 (subf : (⟨S64x17x4096, .f32⟩ : BufTy).Contents (Elt F) → (⟨S64x17x4096, .f32⟩ : BufTy).Contents (Elt F) → (⟨S64x17x4096, .f32⟩ : BufTy).Contents (Elt F)),
    StableHlo.binary main_v79 main_v80 main_v81 (mulf : (⟨S64x17x4096, .f32⟩ : BufTy).Contents (Elt F) → (⟨S64x17x4096, .f32⟩ : BufTy).Contents (Elt F) → (⟨S64x17x4096, .f32⟩ : BufTy).Contents (Elt F)),
    StableHlo.binary main_v78 main_v81 main_v82 (addf : (⟨S64x17x4096, .f32⟩ : BufTy).Contents (Elt F) → (⟨S64x17x4096, .f32⟩ : BufTy).Contents (Elt F) → (⟨S64x17x4096, .f32⟩ : BufTy).Contents (Elt F)),
    StableHlo.binary main_v82 main_v75 main_v83 (subf : (⟨S64x17x4096, .f32⟩ : BufTy).Contents (Elt F) → (⟨S64x17x4096, .f32⟩ : BufTy).Contents (Elt F) → (⟨S64x17x4096, .f32⟩ : BufTy).Contents (Elt F)),
    StableHlo.nullary main_cst_5 (constant S_ .f32 0x33D6BF95#32),
    StableHlo.unary main_cst_5 main_v84 (broadcastInDim S64x17x4096 ![] bcast_S_S64x17x4096 : (⟨S_, .f32⟩ : BufTy).Contents (Elt F) → (⟨S64x17x4096, .f32⟩ : BufTy).Contents (Elt F)),
    StableHlo.binary main_v83 main_v84 main_v85 (addf : (⟨S64x17x4096, .f32⟩ : BufTy).Contents (Elt F) → (⟨S64x17x4096, .f32⟩ : BufTy).Contents (Elt F) → (⟨S64x17x4096, .f32⟩ : BufTy).Contents (Elt F)) ]

abbrev c15 : List (HloOp τ sig (Elt F)) :=
  [ StableHlo.binary main_v45 main_v63 main_v86 (maximumf : (⟨S64x17x4096, .f32⟩ : BufTy).Contents (Elt F) → (⟨S64x17x4096, .f32⟩ : BufTy).Contents (Elt F) → (⟨S64x17x4096, .f32⟩ : BufTy).Contents (Elt F)),
    StableHlo.binary main_v39 main_v57 main_v87 (minimumf : (⟨S64x17x4096, .f32⟩ : BufTy).Contents (Elt F) → (⟨S64x17x4096, .f32⟩ : BufTy).Contents (Elt F) → (⟨S64x17x4096, .f32⟩ : BufTy).Contents (Elt F)),
    StableHlo.binary main_v86 main_v87 main_v88 (subf : (⟨S64x17x4096, .f32⟩ : BufTy).Contents (Elt F) → (⟨S64x17x4096, .f32⟩ : BufTy).Contents (Elt F) → (⟨S64x17x4096, .f32⟩ : BufTy).Contents (Elt F)),
    StableHlo.binary main_v48 main_v66 main_v89 (maximumf : (⟨S64x17x4096, .f32⟩ : BufTy).Contents (Elt F) → (⟨S64x17x4096, .f32⟩ : BufTy).Contents (Elt F) → (⟨S64x17x4096, .f32⟩ : BufTy).Contents (Elt F)),
    StableHlo.binary main_v42 main_v60 main_v90 (minimumf : (⟨S64x17x4096, .f32⟩ : BufTy).Contents (Elt F) → (⟨S64x17x4096, .f32⟩ : BufTy).Contents (Elt F) → (⟨S64x17x4096, .f32⟩ : BufTy).Contents (Elt F)),
    StableHlo.binary main_v89 main_v90 main_v91 (subf : (⟨S64x17x4096, .f32⟩ : BufTy).Contents (Elt F) → (⟨S64x17x4096, .f32⟩ : BufTy).Contents (Elt F) → (⟨S64x17x4096, .f32⟩ : BufTy).Contents (Elt F)),
    StableHlo.binary main_v88 main_v91 main_v92 (mulf : (⟨S64x17x4096, .f32⟩ : BufTy).Contents (Elt F) → (⟨S64x17x4096, .f32⟩ : BufTy).Contents (Elt F) → (⟨S64x17x4096, .f32⟩ : BufTy).Contents (Elt F)),
    StableHlo.nullary main_cst_6 (constant S_ .f32 0x33D6BF95#32),
    StableHlo.unary main_cst_6 main_v93 (broadcastInDim S64x17x4096 ![] bcast_S_S64x17x4096 : (⟨S_, .f32⟩ : BufTy).Contents (Elt F) → (⟨S64x17x4096, .f32⟩ : BufTy).Contents (Elt F)),
    StableHlo.binary main_v92 main_v93 main_v94 (addf : (⟨S64x17x4096, .f32⟩ : BufTy).Contents (Elt F) → (⟨S64x17x4096, .f32⟩ : BufTy).Contents (Elt F) → (⟨S64x17x4096, .f32⟩ : BufTy).Contents (Elt F)) ]

abbrev c16 : List (HloOp τ sig (Elt F)) :=
  [ StableHlo.binary main_v75 main_v85 main_v95 (Host.divf : (⟨S64x17x4096, .f32⟩ : BufTy).Contents (Elt F) → (⟨S64x17x4096, .f32⟩ : BufTy).Contents (Elt F) → (⟨S64x17x4096, .f32⟩ : BufTy).Contents (Elt F)),
    StableHlo.binary main_v94 main_v85 main_v96 (subf : (⟨S64x17x4096, .f32⟩ : BufTy).Contents (Elt F) → (⟨S64x17x4096, .f32⟩ : BufTy).Contents (Elt F) → (⟨S64x17x4096, .f32⟩ : BufTy).Contents (Elt F)),
    StableHlo.binary main_v96 main_v94 main_v97 (Host.divf : (⟨S64x17x4096, .f32⟩ : BufTy).Contents (Elt F) → (⟨S64x17x4096, .f32⟩ : BufTy).Contents (Elt F) → (⟨S64x17x4096, .f32⟩ : BufTy).Contents (Elt F)),
    StableHlo.binary main_v95 main_v97 main_v98 (subf : (⟨S64x17x4096, .f32⟩ : BufTy).Contents (Elt F) → (⟨S64x17x4096, .f32⟩ : BufTy).Contents (Elt F) → (⟨S64x17x4096, .f32⟩ : BufTy).Contents (Elt F)),
    StableHlo.nullary main_cst_7 (constant S_ .f32 0x3F800000#32),
    StableHlo.unary main_cst_7 main_v99 (broadcastInDim S64x17x4096 ![] bcast_S_S64x17x4096 : (⟨S_, .f32⟩ : BufTy).Contents (Elt F) → (⟨S64x17x4096, .f32⟩ : BufTy).Contents (Elt F)),
    StableHlo.binary main_v99 main_v98 main_v100 (subf : (⟨S64x17x4096, .f32⟩ : BufTy).Contents (Elt F) → (⟨S64x17x4096, .f32⟩ : BufTy).Contents (Elt F) → (⟨S64x17x4096, .f32⟩ : BufTy).Contents (Elt F)) ]

abbrev c17 : List (HloOp τ sig (Elt F)) :=
  [ StableHlo.nullary main_cst_8 (constant S_ .f32 0x00000000#32),
    StableHlo.unary main_cst_8 main_v101 (broadcastInDim S64x17x4096 ![] bcast_S_S64x17x4096 : (⟨S_, .f32⟩ : BufTy).Contents (Elt F) → (⟨S64x17x4096, .f32⟩ : BufTy).Contents (Elt F)),
    StableHlo.binary main_v18 main_v101 main_v102 (cmpf .une : (⟨S64x17x4096, .f32⟩ : BufTy).Contents (Elt F) → (⟨S64x17x4096, .f32⟩ : BufTy).Contents (Elt F) → (⟨S64x17x4096, .i1⟩ : BufTy).Contents (Elt F)),
    StableHlo.unary main_v102 main_v103 (uitofp .f32 : (⟨S64x17x4096, .i1⟩ : BufTy).Contents (Elt F) → (⟨S64x17x4096, .f32⟩ : BufTy).Contents (Elt F)),
    StableHlo.binary main_v100 main_v103 main_v104 (mulf : (⟨S64x17x4096, .f32⟩ : BufTy).Contents (Elt F) → (⟨S64x17x4096, .f32⟩ : BufTy).Contents (Elt F) → (⟨S64x17x4096, .f32⟩ : BufTy).Contents (Elt F)),
    StableHlo.nullary main_cst_9 (constant S_ .f32 0x00000000#32),
    StableHlo.binary main_v104 main_cst_9 main_v105 ((fun x v => Host.reduceAdd x v reducesTo_S64x17x4096_S17_d0_2 h_S_) : (⟨S64x17x4096, .f32⟩ : BufTy).Contents (Elt F) → (⟨S_, .f32⟩ : BufTy).Contents (Elt F) → (⟨S17, .f32⟩ : BufTy).Contents (Elt F)),
    StableHlo.nullary main_cst_10 (constant S_ .f32 0x00000000#32),
    StableHlo.binary main_v103 main_cst_10 main_v106 ((fun x v => Host.reduceAdd x v reducesTo_S64x17x4096_S17_d0_2 h_S_) : (⟨S64x17x4096, .f32⟩ : BufTy).Contents (Elt F) → (⟨S_, .f32⟩ : BufTy).Contents (Elt F) → (⟨S17, .f32⟩ : BufTy).Contents (Elt F)) ]

abbrev c18 : List (HloOp τ sig (Elt F)) :=
  [ StableHlo.nullary main_cst_11 (constant S_ .f32 0x3F800000#32),
    StableHlo.unary main_cst_11 main_v107 (broadcastInDim S17 ![] bcast_S_S17 : (⟨S_, .f32⟩ : BufTy).Contents (Elt F) → (⟨S17, .f32⟩ : BufTy).Contents (Elt F)),
    StableHlo.binary main_v106 main_v107 main_v108 (maximumf : (⟨S17, .f32⟩ : BufTy).Contents (Elt F) → (⟨S17, .f32⟩ : BufTy).Contents (Elt F) → (⟨S17, .f32⟩ : BufTy).Contents (Elt F)),
    StableHlo.binary main_v105 main_v108 main_v109 (Host.divf : (⟨S17, .f32⟩ : BufTy).Contents (Elt F) → (⟨S17, .f32⟩ : BufTy).Contents (Elt F) → (⟨S17, .f32⟩ : BufTy).Contents (Elt F)),
    StableHlo.binary main_v25 main_v109 main_v110 (addf : (⟨S17, .f32⟩ : BufTy).Contents (Elt F) → (⟨S17, .f32⟩ : BufTy).Contents (Elt F) → (⟨S17, .f32⟩ : BufTy).Contents (Elt F)),
    StableHlo.nullary main_cst_12 (constant S_ .f32 0x00000000#32),
    StableHlo.binary main_v110 main_cst_12 main_v111 ((fun x v => Host.reduceAdd x v reducesTo_S17_S_d0 h_S_) : (⟨S17, .f32⟩ : BufTy).Contents (Elt F) → (⟨S_, .f32⟩ : BufTy).Contents (Elt F) → (⟨S_, .f32⟩ : BufTy).Contents (Elt F)),
    StableHlo.nullary main_cst_13 (constant S_ .f32 0x41880000#32),
    StableHlo.binary main_v111 main_cst_13 main_v112 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0x3F800000#32),
    StableHlo.binary main_v112 main_cst_14 main_v113 (mulf : (⟨S_, .f32⟩ : BufTy).Contents (Elt F) → (⟨S_, .f32⟩ : BufTy).Contents (Elt F) → (⟨S_, .f32⟩ : BufTy).Contents (Elt F)) ]

abbrev w0 : List (HloOp τ sig (Elt F)) := c1 ++ (c2 ++ (c3 ++ (c4 ++ (c5 ++ (c6 ++ (c7 ++ (c8 ++ (c9 ++ (c10)))))))))
abbrev w1 : List (HloOp τ sig (Elt F)) := c11 ++ (c12 ++ (c13 ++ (c14 ++ (c15 ++ (c16 ++ (c17))))))
abbrev w2 : List (HloOp τ sig (Elt F)) := c18
abbrev ops : List (HloOp τ sig (Elt F)) := w0 ++ (w1 ++ w2)

theorem ops_windows : (ops : List (HloOp τ sig (Elt F))) = w0 ++ (w1 ++ (w2)) := rfl

theorem ops_chunks : (ops : List (HloOp τ sig (Elt F))) = c1 ++ (c2 ++ (c3 ++ (c4 ++ (c5 ++ (c6 ++ (c7 ++ (c8 ++ (c9 ++ (c10 ++ (c11 ++ (c12 ++ (c13 ++ (c14 ++ (c15 ++ (c16 ++ (c17 ++ (c18))))))))))))))))) := by
  simp only [ops, w0, w1, w2, List.append_assoc]

set_option maxRecDepth 8192 in
set_option maxHeartbeats 4000000 in

theorem w0_eq (d : Dev nD) : main_part0 (F := F) d = seq w0 := by
  simp only [w0, c1, c2, c3, c4, c5, c6, c7, c8, c9, c10, List.cons_append, List.nil_append, main_part0, fn_where.body, fn_floor_divide.body, fn_where_0.body, fn_remainder.body, fn_clip.body, seq, bind_assoc, pure_bind]
  all_goals rfl

set_option maxRecDepth 8192 in
set_option maxHeartbeats 4000000 in

theorem w1_eq (d : Dev nD) : main_part1 (F := F) d = seq w1 := by
  simp only [w1, c11, c12, c13, c14, c15, c16, c17, List.cons_append, List.nil_append, main_part1, fn_where.body, fn_floor_divide.body, fn_where_0.body, fn_remainder.body, fn_clip.body, seq, bind_assoc, pure_bind]
  all_goals rfl

set_option maxRecDepth 8192 in
set_option maxHeartbeats 4000000 in

theorem w2_eq (d : Dev nD) : main_part2 (F := F) d = seq w2 := by
  simp only [w2, c18, main_part2, fn_where.body, fn_floor_divide.body, fn_where_0.body, fn_remainder.body, fn_clip.body, seq, bind_assoc, pure_bind]
  all_goals rfl

theorem main_eq (d : Dev nD) : main (F := F) d = seq ops := by
  rw [ops_windows]
  simp only [main, seq_append, w0_eq, w1_eq, w2_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.reshape_bufs_sub .., StableHlo.reshape_bufs_sub .., StableHlo.unary_bufs_sub .., StableHlo.reshape_bufs_sub .., StableHlo.unary_bufs_sub .., StableHlo.reshape_bufs_sub ..,
   StableHlo.unary_bufs_sub .., StableHlo.reshape_bufs_sub .., StableHlo.unary_bufs_sub .., StableHlo.reshape_bufs_sub .., StableHlo.unary_bufs_sub .., StableHlo.reshape_bufs_sub ..,
   StableHlo.unary_bufs_sub .., StableHlo.reshape_bufs_sub .., StableHlo.unary_bufs_sub .., StableHlo.unary_bufs_sub .., StableHlo.binary_bufs_sub .., StableHlo.unary_bufs_sub ..,
   StableHlo.binary_bufs_sub .., StableHlo.binary_bufs_sub .., StableHlo.binary_bufs_sub .., StableHlo.nullary_bufs_sub .., StableHlo.binary_bufs_sub .., StableHlo.nullary_bufs_sub ..,
   StableHlo.unary_bufs_sub .., StableHlo.binary_bufs_sub .., StableHlo.nullary_bufs_sub .., StableHlo.unary_bufs_sub .., StableHlo.binary_bufs_sub .., StableHlo.nullary_bufs_sub ..,
   StableHlo.nullary_bufs_sub .., StableHlo.unary_bufs_sub .., StableHlo.unary_bufs_sub .., StableHlo.binary_bufs_sub .., StableHlo.unary_bufs_sub .., StableHlo.unary_bufs_sub ..,
   StableHlo.unary_bufs_sub .., StableHlo.binary_bufs_sub .., StableHlo.unary_bufs_sub .., StableHlo.binary_bufs_sub .., StableHlo.nullary_bufs_sub .., StableHlo.unary_bufs_sub ..,
   StableHlo.binary_bufs_sub .., StableHlo.binary_bufs_sub .., StableHlo.nullary_bufs_sub .., StableHlo.unary_bufs_sub .., StableHlo.binary_bufs_sub .., StableHlo.ternary_bufs_sub ..,
   StableHlo.unary_bufs_sub .., StableHlo.nullary_bufs_sub .., StableHlo.unary_bufs_sub .., StableHlo.nullary_bufs_sub .., StableHlo.binary_bufs_sub .., StableHlo.nullary_bufs_sub ..,
   StableHlo.ternary_bufs_sub .., StableHlo.unary_bufs_sub .., StableHlo.binary_bufs_sub .., StableHlo.nullary_bufs_sub .., StableHlo.unary_bufs_sub .., StableHlo.binary_bufs_sub ..,
   StableHlo.nullary_bufs_sub .., StableHlo.unary_bufs_sub .., StableHlo.binary_bufs_sub .., StableHlo.nullary_bufs_sub .., StableHlo.binary_bufs_sub .., StableHlo.unary_bufs_sub ..,
   StableHlo.binary_bufs_sub .., StableHlo.binary_bufs_sub .., StableHlo.unary_bufs_sub .., StableHlo.binary_bufs_sub .., StableHlo.ternary_bufs_sub .., StableHlo.unary_bufs_sub ..,
   StableHlo.unary_bufs_sub .., StableHlo.unary_bufs_sub .., StableHlo.binary_bufs_sub .., StableHlo.unary_bufs_sub .., StableHlo.unary_bufs_sub .., StableHlo.binary_bufs_sub ..,
   StableHlo.unary_bufs_sub .., StableHlo.unary_bufs_sub .., StableHlo.binary_bufs_sub .., StableHlo.unary_bufs_sub .., StableHlo.unary_bufs_sub .., StableHlo.binary_bufs_sub ..,
   StableHlo.unary_bufs_sub .., StableHlo.unary_bufs_sub .., StableHlo.binary_bufs_sub .., StableHlo.unary_bufs_sub .., StableHlo.unary_bufs_sub .., StableHlo.binary_bufs_sub ..,
   StableHlo.unary_bufs_sub .., StableHlo.unary_bufs_sub .., StableHlo.binary_bufs_sub .., StableHlo.unary_bufs_sub .., StableHlo.unary_bufs_sub .., StableHlo.binary_bufs_sub ..,
   StableHlo.unary_bufs_sub .., StableHlo.unary_bufs_sub .., StableHlo.binary_bufs_sub .., StableHlo.unary_bufs_sub .., StableHlo.unary_bufs_sub .., StableHlo.binary_bufs_sub ..,
   StableHlo.unary_bufs_sub .., StableHlo.unary_bufs_sub .., StableHlo.binary_bufs_sub .., StableHlo.unary_bufs_sub .., StableHlo.unary_bufs_sub .., StableHlo.binary_bufs_sub ..,
   StableHlo.binary_bufs_sub .., StableHlo.binary_bufs_sub .., StableHlo.binary_bufs_sub .., StableHlo.nullary_bufs_sub .., StableHlo.unary_bufs_sub .., StableHlo.unary_bufs_sub ..,
   StableHlo.binary_bufs_sub .., StableHlo.binary_bufs_sub .., StableHlo.binary_bufs_sub .., StableHlo.binary_bufs_sub .., StableHlo.nullary_bufs_sub .., StableHlo.unary_bufs_sub ..,
   StableHlo.unary_bufs_sub .., StableHlo.binary_bufs_sub .., StableHlo.binary_bufs_sub .., StableHlo.binary_bufs_sub .., StableHlo.binary_bufs_sub .., StableHlo.binary_bufs_sub ..,
   StableHlo.binary_bufs_sub .., StableHlo.binary_bufs_sub .., StableHlo.binary_bufs_sub .., StableHlo.binary_bufs_sub .., StableHlo.binary_bufs_sub .., StableHlo.nullary_bufs_sub ..,
   StableHlo.unary_bufs_sub .., StableHlo.binary_bufs_sub .., StableHlo.binary_bufs_sub .., StableHlo.binary_bufs_sub .., StableHlo.binary_bufs_sub .., StableHlo.binary_bufs_sub ..,
   StableHlo.binary_bufs_sub .., StableHlo.binary_bufs_sub .., StableHlo.binary_bufs_sub .., StableHlo.nullary_bufs_sub .., StableHlo.unary_bufs_sub .., StableHlo.binary_bufs_sub ..,
   StableHlo.binary_bufs_sub .., StableHlo.binary_bufs_sub .., StableHlo.binary_bufs_sub .., StableHlo.binary_bufs_sub .., StableHlo.nullary_bufs_sub .., StableHlo.unary_bufs_sub ..,
   StableHlo.binary_bufs_sub .., StableHlo.nullary_bufs_sub .., StableHlo.unary_bufs_sub .., StableHlo.binary_bufs_sub .., StableHlo.unary_bufs_sub .., StableHlo.binary_bufs_sub ..,
   StableHlo.nullary_bufs_sub .., StableHlo.binary_bufs_sub .., StableHlo.nullary_bufs_sub .., StableHlo.binary_bufs_sub .., StableHlo.nullary_bufs_sub .., StableHlo.unary_bufs_sub ..,
   StableHlo.binary_bufs_sub .., StableHlo.binary_bufs_sub .., StableHlo.binary_bufs_sub .., StableHlo.nullary_bufs_sub .., StableHlo.binary_bufs_sub .., StableHlo.nullary_bufs_sub ..,
   StableHlo.binary_bufs_sub .., StableHlo.nullary_bufs_sub .., StableHlo.binary_bufs_sub ..⟩

theorem ops_fresh : ∀ op ∈ (ops : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ :
    (ops : List (HloOp τ sig (Elt F))).Forall fun op => op.fresh = ∅)

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

def Inv0 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W

def Inv1 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v3 : DevRef τ sig) = RefTerm.v3 X
  ∧ V (main_v5 : DevRef τ sig) = RefTerm.v5 X
  ∧ V (main_v7 : DevRef τ sig) = RefTerm.v7 X
  ∧ V (main_v9 : DevRef τ sig) = RefTerm.v9 Y
  ∧ V (main_v11 : DevRef τ sig) = RefTerm.v11 Y
  ∧ V (main_v13 : DevRef τ sig) = RefTerm.v13 Y

def Inv2 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v5 : DevRef τ sig) = RefTerm.v5 X
  ∧ V (main_v7 : DevRef τ sig) = RefTerm.v7 X
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W

def Inv3 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v5 : DevRef τ sig) = RefTerm.v5 X
  ∧ V (main_v7 : DevRef τ sig) = RefTerm.v7 X
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W
  ∧ V (main_v26 : DevRef τ sig) = RefTerm.pos
  ∧ V (main_call0_v0 : DevRef τ sig) = RefTerm.fdDivisor
  ∧ V (main_call0_v2 : DevRef τ sig) = RefTerm.fdQuot

def Inv4 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v5 : DevRef τ sig) = RefTerm.v5 X
  ∧ V (main_v7 : DevRef τ sig) = RefTerm.v7 X
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W
  ∧ V (main_v26 : DevRef τ sig) = RefTerm.pos
  ∧ V (main_call0_v2 : DevRef τ sig) = RefTerm.fdQuot
  ∧ V (main_call0_v11 : DevRef τ sig) = RefTerm.fdAdjust

def Inv5 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v5 : DevRef τ sig) = RefTerm.v5 X
  ∧ V (main_v7 : DevRef τ sig) = RefTerm.v7 X
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W
  ∧ V (main_v26 : DevRef τ sig) = RefTerm.pos
  ∧ V (main_v28 : DevRef τ sig) = (RefTerm.v28 (F := F))

def Inv6 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v5 : DevRef τ sig) = RefTerm.v5 X
  ∧ V (main_v7 : DevRef τ sig) = RefTerm.v7 X
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W
  ∧ V (main_v28 : DevRef τ sig) = (RefTerm.v28 (F := F))
  ∧ V (main_call1_v2 : DevRef τ sig) = RefTerm.rmSafe
  ∧ V (main_call1_v4 : DevRef τ sig) = RefTerm.rmRem

def Inv7 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v5 : DevRef τ sig) = RefTerm.v5 X
  ∧ V (main_v7 : DevRef τ sig) = RefTerm.v7 X
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W
  ∧ V (main_v28 : DevRef τ sig) = (RefTerm.v28 (F := F))
  ∧ V (main_call1_v2 : DevRef τ sig) = RefTerm.rmSafe
  ∧ V (main_call1_v4 : DevRef τ sig) = RefTerm.rmRem
  ∧ V (main_call1_v12 : DevRef τ sig) = RefTerm.rmAdjust

def Inv8 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v5 : DevRef τ sig) = RefTerm.v5 X
  ∧ V (main_v7 : DevRef τ sig) = RefTerm.v7 X
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W
  ∧ V (main_v28 : DevRef τ sig) = (RefTerm.v28 (F := F))
  ∧ V (main_v30 : DevRef τ sig) = (RefTerm.v30 (F := F))

def Inv9 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v11 : DevRef τ sig) = RefTerm.v11 Y
  ∧ V (main_v13 : DevRef τ sig) = RefTerm.v13 Y
  ∧ V (main_v18 : DevRef τ sig) = RefTerm.v18 Y W
  ∧ V (main_v25 : DevRef τ sig) = RefTerm.v25 X Y W
  ∧ V (main_v28 : DevRef τ sig) = (RefTerm.v28 (F := F))
  ∧ V (main_v30 : DevRef τ sig) = (RefTerm.v30 (F := F))
  ∧ V (main_v33 : DevRef τ sig) = RefTerm.v33 X
  ∧ V (main_v36 : DevRef τ sig) = RefTerm.v36 X
  ∧ V (main_v39 : DevRef τ sig) = RefTerm.v39 X
  ∧ V (main_v42 : DevRef τ sig) = RefTerm.v42 X

def Inv10 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v18 : DevRef τ sig) = RefTerm.v18 Y W
  ∧ V (main_v25 : DevRef τ sig) = RefTerm.v25 X Y W
  ∧ V (main_v28 : DevRef τ sig) = (RefTerm.v28 (F := F))
  ∧ V (main_v30 : DevRef τ sig) = (RefTerm.v30 (F := F))
  ∧ V (main_v39 : DevRef τ sig) = RefTerm.v39 X
  ∧ V (main_v42 : DevRef τ sig) = RefTerm.v42 X
  ∧ V (main_v45 : DevRef τ sig) = RefTerm.v45 X
  ∧ V (main_v48 : DevRef τ sig) = RefTerm.v48 X
  ∧ V (main_v51 : DevRef τ sig) = RefTerm.v51 Y
  ∧ V (main_v54 : DevRef τ sig) = RefTerm.v54 Y

def Inv11 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v18 : DevRef τ sig) = RefTerm.v18 Y W
  ∧ V (main_v25 : DevRef τ sig) = RefTerm.v25 X Y W
  ∧ V (main_v39 : DevRef τ sig) = RefTerm.v39 X
  ∧ V (main_v42 : DevRef τ sig) = RefTerm.v42 X
  ∧ V (main_v45 : DevRef τ sig) = RefTerm.v45 X
  ∧ V (main_v48 : DevRef τ sig) = RefTerm.v48 X
  ∧ V (main_v57 : DevRef τ sig) = RefTerm.v57 Y
  ∧ V (main_v60 : DevRef τ sig) = RefTerm.v60 Y
  ∧ V (main_v63 : DevRef τ sig) = RefTerm.v63 Y
  ∧ V (main_v66 : DevRef τ sig) = RefTerm.v66 Y

def Inv12 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v18 : DevRef τ sig) = RefTerm.v18 Y W
  ∧ V (main_v25 : DevRef τ sig) = RefTerm.v25 X Y W
  ∧ V (main_v39 : DevRef τ sig) = RefTerm.v39 X
  ∧ V (main_v42 : DevRef τ sig) = RefTerm.v42 X
  ∧ V (main_v45 : DevRef τ sig) = RefTerm.v45 X
  ∧ V (main_v48 : DevRef τ sig) = RefTerm.v48 X
  ∧ V (main_v57 : DevRef τ sig) = RefTerm.v57 Y
  ∧ V (main_v60 : DevRef τ sig) = RefTerm.v60 Y
  ∧ V (main_v63 : DevRef τ sig) = RefTerm.v63 Y
  ∧ V (main_v66 : DevRef τ sig) = RefTerm.v66 Y
  ∧ V (main_v70 : DevRef τ sig) = RefTerm.v70 X Y

def Inv13 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v18 : DevRef τ sig) = RefTerm.v18 Y W
  ∧ V (main_v25 : DevRef τ sig) = RefTerm.v25 X Y W
  ∧ V (main_v39 : DevRef τ sig) = RefTerm.v39 X
  ∧ V (main_v42 : DevRef τ sig) = RefTerm.v42 X
  ∧ V (main_v45 : DevRef τ sig) = RefTerm.v45 X
  ∧ V (main_v48 : DevRef τ sig) = RefTerm.v48 X
  ∧ V (main_v57 : DevRef τ sig) = RefTerm.v57 Y
  ∧ V (main_v60 : DevRef τ sig) = RefTerm.v60 Y
  ∧ V (main_v63 : DevRef τ sig) = RefTerm.v63 Y
  ∧ V (main_v66 : DevRef τ sig) = RefTerm.v66 Y
  ∧ V (main_v75 : DevRef τ sig) = RefTerm.v75 X Y

def Inv14 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v18 : DevRef τ sig) = RefTerm.v18 Y W
  ∧ V (main_v25 : DevRef τ sig) = RefTerm.v25 X Y W
  ∧ V (main_v39 : DevRef τ sig) = RefTerm.v39 X
  ∧ V (main_v42 : DevRef τ sig) = RefTerm.v42 X
  ∧ V (main_v45 : DevRef τ sig) = RefTerm.v45 X
  ∧ V (main_v48 : DevRef τ sig) = RefTerm.v48 X
  ∧ V (main_v57 : DevRef τ sig) = RefTerm.v57 Y
  ∧ V (main_v60 : DevRef τ sig) = RefTerm.v60 Y
  ∧ V (main_v63 : DevRef τ sig) = RefTerm.v63 Y
  ∧ V (main_v66 : DevRef τ sig) = RefTerm.v66 Y
  ∧ V (main_v75 : DevRef τ sig) = RefTerm.v75 X Y
  ∧ V (main_v85 : DevRef τ sig) = RefTerm.v85 X Y

def Inv15 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v18 : DevRef τ sig) = RefTerm.v18 Y W
  ∧ V (main_v25 : DevRef τ sig) = RefTerm.v25 X Y W
  ∧ V (main_v75 : DevRef τ sig) = RefTerm.v75 X Y
  ∧ V (main_v85 : DevRef τ sig) = RefTerm.v85 X Y
  ∧ V (main_v94 : DevRef τ sig) = RefTerm.v94 X Y

def Inv16 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v18 : DevRef τ sig) = RefTerm.v18 Y W
  ∧ V (main_v25 : DevRef τ sig) = RefTerm.v25 X Y W
  ∧ V (main_v100 : DevRef τ sig) = RefTerm.v100 X Y

def Inv17 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v25 : DevRef τ sig) = RefTerm.v25 X Y W
  ∧ V (main_v105 : DevRef τ sig) = RefTerm.v105 X Y W
  ∧ V (main_v106 : DevRef τ sig) = RefTerm.v106 Y W

def Inv18 (V : Valuation τ sig (Elt F)) (X Y : Vec F S64x51x64x64 .f32) (W : Vec F S64x17 .f32) : Prop :=
  V (main_arg0 : DevRef τ sig) = X
  ∧ V (main_arg1 : DevRef τ sig) = Y
  ∧ V (main_arg2 : DevRef τ sig) = W
  ∧ V (main_v113 : DevRef τ sig) = RefTerm.out X Y W

theorem inv0 (V : Valuation τ sig (Elt F)) :
    Inv0 V (V (main_arg0 : DevRef τ sig)) (V (main_arg1 : DevRef τ sig)) (V (main_arg2 : DevRef τ sig)) := ⟨rfl, rfl, rfl⟩

set_option maxRecDepth 8192 in
set_option maxHeartbeats 4000000 in
theorem step1 {V : Valuation τ sig (Elt F)} {X Y : Vec F S64x51x64x64 .f32} {W : Vec F S64x17 .f32}
    (h : Inv0 V X Y W) : Inv1 (after c1 V) X Y W := by
  obtain ⟨h_main_arg0, h_main_arg1, h_main_arg2⟩ := h
  refine ⟨?_, ?_, ?_, ?_, ?_, ?_, ?_, ?_, ?_⟩
  · after_results_simp <;> exact h_main_arg0
  · after_results_simp <;> exact h_main_arg1
  · after_results_simp <;> exact h_main_arg2
  · after_results_simp <;> (try simp only [h_main_arg0, h_main_arg1, h_main_arg2]) <;> rfl
  · after_results_simp <;> (try simp only [h_main_arg0, h_main_arg1, h_main_arg2]) <;> rfl
  · after_results_simp <;> (try simp only [h_main_arg0, h_main_arg1, h_main_arg2]) <;> rfl
  · after_results_simp <;> (try simp only [h_main_arg0, h_main_arg1, h_main_arg2]) <;> rfl
  · after_results_simp <;> (try simp only [h_main_arg0, h_main_arg1, h_main_arg2]) <;> rfl
  · after_results_simp <;> (try simp only [h_main_arg0, h_main_arg1, h_main_arg2]) <;> rfl

set_option maxRecDepth 8192 in
set_option maxHeartbeats 4000000 in
theorem step2 {V : Valuation τ sig (Elt F)} {X Y : Vec F S64x51x64x64 .f32} {W : Vec F S64x17 .f32}
    (h : Inv1 V X Y W) : Inv2 (after c2 V) X Y W := by
  obtain ⟨h_main_arg0, h_main_arg1, h_main_arg2, h_main_v3, h_main_v5, h_main_v7, h_main_v9, h_main_v11, h_main_v13⟩ := h
  refine ⟨?_, ?_, ?_, ?_, ?_, ?_, ?_, ?_, ?_⟩
  · after_results_simp <;> exact h_main_arg0
  · after_results_simp <;> exact h_main_arg1
  · after_results_simp <;> exact h_main_arg2
  · after_results_simp <;> exact h_main_v5
  · after_results_simp <;> exact h_main_v7
  · after_results_simp <;> exact h_main_v11
  · after_results_simp <;> exact h_main_v13
  · after_results_simp <;> (try simp only [h_main_arg0, h_main_arg1, h_main_arg2, h_main_v3, h_main_v5, h_main_v7, h_main_v9, h_main_v11, h_main_v13]) <;> rfl
  · after_results_simp <;> (try simp only [h_main_arg0, h_main_arg1, h_main_arg2, h_main_v3, h_main_v5, h_main_v7, h_main_v9, h_main_v11, h_main_v13]) <;> rfl

set_option maxRecDepth 8192 in
set_option maxHeartbeats 4000000 in
theorem step3 {V : Valuation τ sig (Elt F)} {X Y : Vec F S64x51x64x64 .f32} {W : Vec F S64x17 .f32}
    (h : Inv2 V X Y W) : Inv3 (after c3 V) X Y W := by
  obtain ⟨h_main_arg0, h_main_arg1, h_main_arg2, h_main_v5, h_main_v7, h_main_v11, h_main_v13, h_main_v18, h_main_v25⟩ := h
  refine ⟨?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v5
  · after_results_simp <;> exact h_main_v7
  · after_results_simp <;> exact h_main_v11
  · after_results_simp <;> exact h_main_v13
  · after_results_simp <;> exact h_main_v18
  · after_results_simp <;> exact h_main_v25
  · after_results_simp <;> (try simp only [h_main_arg0, h_main_arg1, h_main_arg2, h_main_v5, h_main_v7, h_main_v11, h_main_v13, h_main_v18, h_main_v25]) <;> rfl
  · after_results_simp <;> (try simp only [h_main_arg0, h_main_arg1, h_main_arg2, h_main_v5, h_main_v7, h_main_v11, h_main_v13, h_main_v18, h_main_v25]) <;> rfl
  · after_results_simp <;> (try simp only [h_main_arg0, h_main_arg1, h_main_arg2, h_main_v5, h_main_v7, h_main_v11, h_main_v13, h_main_v18, h_main_v25]) <;> rfl

set_option maxRecDepth 8192 in
set_option maxHeartbeats 4000000 in
theorem step4 {V : Valuation τ sig (Elt F)} {X Y : Vec F S64x51x64x64 .f32} {W : Vec F S64x17 .f32}
    (h : Inv3 V X Y W) : Inv4 (after c4 V) X Y W := by
  obtain ⟨h_main_arg0, h_main_arg1, h_main_arg2, h_main_v5, h_main_v7, h_main_v11, h_main_v13, h_main_v18, h_main_v25, h_main_v26, h_main_call0_v0, h_main_call0_v2⟩ := h
  refine ⟨?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v5
  · after_results_simp <;> exact h_main_v7
  · after_results_simp <;> exact h_main_v11
  · after_results_simp <;> exact h_main_v13
  · after_results_simp <;> exact h_main_v18
  · after_results_simp <;> exact h_main_v25
  · after_results_simp <;> exact h_main_v26
  · after_results_simp <;> exact h_main_call0_v2
  · after_results_simp <;> (try simp only [h_main_arg0, h_main_arg1, h_main_arg2, h_main_v5, h_main_v7, h_main_v11, h_main_v13, h_main_v18, h_main_v25, h_main_v26, h_main_call0_v0, h_main_call0_v2]) <;> rfl

set_option maxRecDepth 8192 in
set_option maxHeartbeats 4000000 in
theorem step5 {V : Valuation τ sig (Elt F)} {X Y : Vec F S64x51x64x64 .f32} {W : Vec F S64x17 .f32}
    (h : Inv4 V X Y W) : Inv5 (after c5 V) X Y W := by
  obtain ⟨h_main_arg0, h_main_arg1, h_main_arg2, h_main_v5, h_main_v7, h_main_v11, h_main_v13, h_main_v18, h_main_v25, h_main_v26, h_main_call0_v2, h_main_call0_v11⟩ := h
  refine ⟨?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v5
  · after_results_simp <;> exact h_main_v7
  · after_results_simp <;> exact h_main_v11
  · after_results_simp <;> exact h_main_v13
  · after_results_simp <;> exact h_main_v18
  · after_results_simp <;> exact h_main_v25
  · after_results_simp <;> exact h_main_v26
  · after_results_simp <;> (try simp only [h_main_arg0, h_main_arg1, h_main_arg2, h_main_v5, h_main_v7, h_main_v11, h_main_v13, h_main_v18, h_main_v25, h_main_v26, h_main_call0_v2, h_main_call0_v11]) <;> rfl

set_option maxRecDepth 8192 in
set_option maxHeartbeats 4000000 in
theorem step6 {V : Valuation τ sig (Elt F)} {X Y : Vec F S64x51x64x64 .f32} {W : Vec F S64x17 .f32}
    (h : Inv5 V X Y W) : Inv6 (after c6 V) X Y W := by
  obtain ⟨h_main_arg0, h_main_arg1, h_main_arg2, h_main_v5, h_main_v7, h_main_v11, h_main_v13, h_main_v18, h_main_v25, h_main_v26, h_main_v28⟩ := h
  refine ⟨?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v5
  · after_results_simp <;> exact h_main_v7
  · after_results_simp <;> exact h_main_v11
  · after_results_simp <;> exact h_main_v13
  · after_results_simp <;> exact h_main_v18
  · after_results_simp <;> exact h_main_v25
  · after_results_simp <;> exact h_main_v28
  · after_results_simp <;> (try simp only [h_main_arg0, h_main_arg1, h_main_arg2, h_main_v5, h_main_v7, h_main_v11, h_main_v13, h_main_v18, h_main_v25, h_main_v26, h_main_v28]) <;> rfl
  · after_results_simp <;> (try simp only [h_main_arg0, h_main_arg1, h_main_arg2, h_main_v5, h_main_v7, h_main_v11, h_main_v13, h_main_v18, h_main_v25, h_main_v26, h_main_v28]) <;> rfl

set_option maxRecDepth 8192 in
set_option maxHeartbeats 4000000 in
theorem step7 {V : Valuation τ sig (Elt F)} {X Y : Vec F S64x51x64x64 .f32} {W : Vec F S64x17 .f32}
    (h : Inv6 V X Y W) : Inv7 (after c7 V) X Y W := by
  obtain ⟨h_main_arg0, h_main_arg1, h_main_arg2, h_main_v5, h_main_v7, h_main_v11, h_main_v13, h_main_v18, h_main_v25, h_main_v28, h_main_call1_v2, h_main_call1_v4⟩ := h
  refine ⟨?_, ?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v5
  · after_results_simp <;> exact h_main_v7
  · after_results_simp <;> exact h_main_v11
  · after_results_simp <;> exact h_main_v13
  · after_results_simp <;> exact h_main_v18
  · after_results_simp <;> exact h_main_v25
  · after_results_simp <;> exact h_main_v28
  · after_results_simp <;> exact h_main_call1_v2
  · after_results_simp <;> exact h_main_call1_v4
  · after_results_simp <;> (try simp only [h_main_arg0, h_main_arg1, h_main_arg2, h_main_v5, h_main_v7, h_main_v11, h_main_v13, h_main_v18, h_main_v25, h_main_v28, h_main_call1_v2, h_main_call1_v4]) <;> rfl

set_option maxRecDepth 8192 in
set_option maxHeartbeats 4000000 in
theorem step8 {V : Valuation τ sig (Elt F)} {X Y : Vec F S64x51x64x64 .f32} {W : Vec F S64x17 .f32}
    (h : Inv7 V X Y W) : Inv8 (after c8 V) X Y W := by
  obtain ⟨h_main_arg0, h_main_arg1, h_main_arg2, h_main_v5, h_main_v7, h_main_v11, h_main_v13, h_main_v18, h_main_v25, h_main_v28, h_main_call1_v2, h_main_call1_v4, h_main_call1_v12⟩ := h
  refine ⟨?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v5
  · after_results_simp <;> exact h_main_v7
  · after_results_simp <;> exact h_main_v11
  · after_results_simp <;> exact h_main_v13
  · after_results_simp <;> exact h_main_v18
  · after_results_simp <;> exact h_main_v25
  · after_results_simp <;> exact h_main_v28
  · after_results_simp <;> (try simp only [h_main_arg0, h_main_arg1, h_main_arg2, h_main_v5, h_main_v7, h_main_v11, h_main_v13, h_main_v18, h_main_v25, h_main_v28, h_main_call1_v2, h_main_call1_v4, h_main_call1_v12]) <;> rfl

set_option maxRecDepth 8192 in
set_option maxHeartbeats 4000000 in
theorem step9 {V : Valuation τ sig (Elt F)} {X Y : Vec F S64x51x64x64 .f32} {W : Vec F S64x17 .f32}
    (h : Inv8 V X Y W) : Inv9 (after c9 V) X Y W := by
  obtain ⟨h_main_arg0, h_main_arg1, h_main_arg2, h_main_v5, h_main_v7, h_main_v11, h_main_v13, h_main_v18, h_main_v25, h_main_v28, h_main_v30⟩ := h
  refine ⟨?_, ?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v11
  · after_results_simp <;> exact h_main_v13
  · after_results_simp <;> exact h_main_v18
  · after_results_simp <;> exact h_main_v25
  · after_results_simp <;> exact h_main_v28
  · after_results_simp <;> exact h_main_v30
  · after_results_simp <;> (try simp only [h_main_arg0, h_main_arg1, h_main_arg2, h_main_v5, h_main_v7, h_main_v11, h_main_v13, h_main_v18, h_main_v25, h_main_v28, h_main_v30]) <;> rfl
  · after_results_simp <;> (try simp only [h_main_arg0, h_main_arg1, h_main_arg2, h_main_v5, h_main_v7, h_main_v11, h_main_v13, h_main_v18, h_main_v25, h_main_v28, h_main_v30]) <;> rfl
  · after_results_simp <;> (try simp only [h_main_arg0, h_main_arg1, h_main_arg2, h_main_v5, h_main_v7, h_main_v11, h_main_v13, h_main_v18, h_main_v25, h_main_v28, h_main_v30]) <;> rfl
  · after_results_simp <;> (try simp only [h_main_arg0, h_main_arg1, h_main_arg2, h_main_v5, h_main_v7, h_main_v11, h_main_v13, h_main_v18, h_main_v25, h_main_v28, h_main_v30]) <;> rfl

set_option maxRecDepth 8192 in
set_option maxHeartbeats 4000000 in
theorem step10 {V : Valuation τ sig (Elt F)} {X Y : Vec F S64x51x64x64 .f32} {W : Vec F S64x17 .f32}
    (h : Inv9 V X Y W) : Inv10 (after c10 V) X Y W := by
  obtain ⟨h_main_arg0, h_main_arg1, h_main_arg2, h_main_v11, h_main_v13, h_main_v18, h_main_v25, h_main_v28, h_main_v30, h_main_v33, h_main_v36, h_main_v39, h_main_v42⟩ := h
  refine ⟨?_, ?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v18
  · after_results_simp <;> exact h_main_v25
  · after_results_simp <;> exact h_main_v28
  · after_results_simp <;> exact h_main_v30
  · after_results_simp <;> exact h_main_v39
  · after_results_simp <;> exact h_main_v42
  · after_results_simp <;> (try simp only [h_main_arg0, h_main_arg1, h_main_arg2, h_main_v11, h_main_v13, h_main_v18, h_main_v25, h_main_v28, h_main_v30, h_main_v33, h_main_v36, h_main_v39, h_main_v42]) <;> rfl
  · after_results_simp <;> (try simp only [h_main_arg0, h_main_arg1, h_main_arg2, h_main_v11, h_main_v13, h_main_v18, h_main_v25, h_main_v28, h_main_v30, h_main_v33, h_main_v36, h_main_v39, h_main_v42]) <;> rfl
  · after_results_simp <;> (try simp only [h_main_arg0, h_main_arg1, h_main_arg2, h_main_v11, h_main_v13, h_main_v18, h_main_v25, h_main_v28, h_main_v30, h_main_v33, h_main_v36, h_main_v39, h_main_v42]) <;> rfl
  · after_results_simp <;> (try simp only [h_main_arg0, h_main_arg1, h_main_arg2, h_main_v11, h_main_v13, h_main_v18, h_main_v25, h_main_v28, h_main_v30, h_main_v33, h_main_v36, h_main_v39, h_main_v42]) <;> rfl

set_option maxRecDepth 8192 in
set_option maxHeartbeats 4000000 in
theorem step11 {V : Valuation τ sig (Elt F)} {X Y : Vec F S64x51x64x64 .f32} {W : Vec F S64x17 .f32}
    (h : Inv10 V X Y W) : Inv11 (after c11 V) X Y W := by
  obtain ⟨h_main_arg0, h_main_arg1, h_main_arg2, h_main_v18, h_main_v25, h_main_v28, h_main_v30, h_main_v39, h_main_v42, h_main_v45, h_main_v48, h_main_v51, h_main_v54⟩ := h
  refine ⟨?_, ?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v18
  · after_results_simp <;> exact h_main_v25
  · after_results_simp <;> exact h_main_v39
  · after_results_simp <;> exact h_main_v42
  · after_results_simp <;> exact h_main_v45
  · after_results_simp <;> exact h_main_v48
  · after_results_simp <;> (try simp only [h_main_arg0, h_main_arg1, h_main_arg2, h_main_v18, h_main_v25, h_main_v28, h_main_v30, h_main_v39, h_main_v42, h_main_v45, h_main_v48, h_main_v51, h_main_v54]) <;> rfl
  · after_results_simp <;> (try simp only [h_main_arg0, h_main_arg1, h_main_arg2, h_main_v18, h_main_v25, h_main_v28, h_main_v30, h_main_v39, h_main_v42, h_main_v45, h_main_v48, h_main_v51, h_main_v54]) <;> rfl
  · after_results_simp <;> (try simp only [h_main_arg0, h_main_arg1, h_main_arg2, h_main_v18, h_main_v25, h_main_v28, h_main_v30, h_main_v39, h_main_v42, h_main_v45, h_main_v48, h_main_v51, h_main_v54]) <;> rfl
  · after_results_simp <;> (try simp only [h_main_arg0, h_main_arg1, h_main_arg2, h_main_v18, h_main_v25, h_main_v28, h_main_v30, h_main_v39, h_main_v42, h_main_v45, h_main_v48, h_main_v51, h_main_v54]) <;> rfl

set_option maxRecDepth 8192 in
set_option maxHeartbeats 4000000 in
theorem step12 {V : Valuation τ sig (Elt F)} {X Y : Vec F S64x51x64x64 .f32} {W : Vec F S64x17 .f32}
    (h : Inv11 V X Y W) : Inv12 (after c12 V) X Y W := by
  obtain ⟨h_main_arg0, h_main_arg1, h_main_arg2, h_main_v18, h_main_v25, h_main_v39, h_main_v42, h_main_v45, h_main_v48, h_main_v57, h_main_v60, h_main_v63, h_main_v66⟩ := h
  refine ⟨?_, ?_, ?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v18
  · after_results_simp <;> exact h_main_v25
  · after_results_simp <;> exact h_main_v39
  · after_results_simp <;> exact h_main_v42
  · after_results_simp <;> exact h_main_v45
  · after_results_simp <;> exact h_main_v48
  · after_results_simp <;> exact h_main_v57
  · after_results_simp <;> exact h_main_v60
  · after_results_simp <;> exact h_main_v63
  · after_results_simp <;> exact h_main_v66
  · after_results_simp <;> (try simp only [h_main_arg0, h_main_arg1, h_main_arg2, h_main_v18, h_main_v25, h_main_v39, h_main_v42, h_main_v45, h_main_v48, h_main_v57, h_main_v60, h_main_v63, h_main_v66]) <;> rfl

set_option maxRecDepth 8192 in
set_option maxHeartbeats 4000000 in
theorem step13 {V : Valuation τ sig (Elt F)} {X Y : Vec F S64x51x64x64 .f32} {W : Vec F S64x17 .f32}
    (h : Inv12 V X Y W) : Inv13 (after c13 V) X Y W := by
  obtain ⟨h_main_arg0, h_main_arg1, h_main_arg2, h_main_v18, h_main_v25, h_main_v39, h_main_v42, h_main_v45, h_main_v48, h_main_v57, h_main_v60, h_main_v63, h_main_v66, h_main_v70⟩ := h
  refine ⟨?_, ?_, ?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v18
  · after_results_simp <;> exact h_main_v25
  · after_results_simp <;> exact h_main_v39
  · after_results_simp <;> exact h_main_v42
  · after_results_simp <;> exact h_main_v45
  · after_results_simp <;> exact h_main_v48
  · after_results_simp <;> exact h_main_v57
  · after_results_simp <;> exact h_main_v60
  · after_results_simp <;> exact h_main_v63
  · after_results_simp <;> exact h_main_v66
  · after_results_simp <;> (try simp only [h_main_arg0, h_main_arg1, h_main_arg2, h_main_v18, h_main_v25, h_main_v39, h_main_v42, h_main_v45, h_main_v48, h_main_v57, h_main_v60, h_main_v63, h_main_v66, h_main_v70]) <;> rfl

set_option maxRecDepth 8192 in
set_option maxHeartbeats 4000000 in
theorem step14 {V : Valuation τ sig (Elt F)} {X Y : Vec F S64x51x64x64 .f32} {W : Vec F S64x17 .f32}
    (h : Inv13 V X Y W) : Inv14 (after c14 V) X Y W := by
  obtain ⟨h_main_arg0, h_main_arg1, h_main_arg2, h_main_v18, h_main_v25, h_main_v39, h_main_v42, h_main_v45, h_main_v48, h_main_v57, h_main_v60, h_main_v63, h_main_v66, h_main_v75⟩ := h
  refine ⟨?_, ?_, ?_, ?_, ?_, ?_, ?_, ?_, ?_, ?_, ?_, ?_, ?_, ?_, ?_⟩
  · after_results_simp <;> exact h_main_arg0
  · after_results_simp <;> exact h_main_arg1
  · after_results_simp <;> exact h_main_arg2
  · after_results_simp <;> exact h_main_v18
  · after_results_simp <;> exact h_main_v25
  · after_results_simp <;> exact h_main_v39
  · after_results_simp <;> exact h_main_v42
  · after_results_simp <;> exact h_main_v45
  · after_results_simp <;> exact h_main_v48
  · after_results_simp <;> exact h_main_v57
  · after_results_simp <;> exact h_main_v60
  · after_results_simp <;> exact h_main_v63
  · after_results_simp <;> exact h_main_v66
  · after_results_simp <;> exact h_main_v75
  · after_results_simp <;> (try simp only [h_main_arg0, h_main_arg1, h_main_arg2, h_main_v18, h_main_v25, h_main_v39, h_main_v42, h_main_v45, h_main_v48, h_main_v57, h_main_v60, h_main_v63, h_main_v66, h_main_v75]) <;> rfl

set_option maxRecDepth 8192 in
set_option maxHeartbeats 4000000 in
theorem step15 {V : Valuation τ sig (Elt F)} {X Y : Vec F S64x51x64x64 .f32} {W : Vec F S64x17 .f32}
    (h : Inv14 V X Y W) : Inv15 (after c15 V) X Y W := by
  obtain ⟨h_main_arg0, h_main_arg1, h_main_arg2, h_main_v18, h_main_v25, h_main_v39, h_main_v42, h_main_v45, h_main_v48, h_main_v57, h_main_v60, h_main_v63, h_main_v66, h_main_v75, h_main_v85⟩ := h
  refine ⟨?_, ?_, ?_, ?_, ?_, ?_, ?_, ?_⟩
  · after_results_simp <;> exact h_main_arg0
  · after_results_simp <;> exact h_main_arg1
  · after_results_simp <;> exact h_main_arg2
  · after_results_simp <;> exact h_main_v18
  · after_results_simp <;> exact h_main_v25
  · after_results_simp <;> exact h_main_v75
  · after_results_simp <;> exact h_main_v85
  · after_results_simp <;> (try simp only [h_main_arg0, h_main_arg1, h_main_arg2, h_main_v18, h_main_v25, h_main_v39, h_main_v42, h_main_v45, h_main_v48, h_main_v57, h_main_v60, h_main_v63, h_main_v66, h_main_v75, h_main_v85]) <;> rfl

set_option maxRecDepth 8192 in
set_option maxHeartbeats 4000000 in
theorem step16 {V : Valuation τ sig (Elt F)} {X Y : Vec F S64x51x64x64 .f32} {W : Vec F S64x17 .f32}
    (h : Inv15 V X Y W) : Inv16 (after c16 V) X Y W := by
  obtain ⟨h_main_arg0, h_main_arg1, h_main_arg2, h_main_v18, h_main_v25, h_main_v75, h_main_v85, h_main_v94⟩ := h
  refine ⟨?_, ?_, ?_, ?_, ?_, ?_⟩
  · after_results_simp <;> exact h_main_arg0
  · after_results_simp <;> exact h_main_arg1
  · after_results_simp <;> exact h_main_arg2
  · after_results_simp <;> exact h_main_v18
  · after_results_simp <;> exact h_main_v25
  · after_results_simp <;> (try simp only [h_main_arg0, h_main_arg1, h_main_arg2, h_main_v18, h_main_v25, h_main_v75, h_main_v85, h_main_v94]) <;> rfl

set_option maxRecDepth 8192 in
set_option maxHeartbeats 4000000 in
theorem step17 {V : Valuation τ sig (Elt F)} {X Y : Vec F S64x51x64x64 .f32} {W : Vec F S64x17 .f32}
    (h : Inv16 V X Y W) : Inv17 (after c17 V) X Y W := by
  obtain ⟨h_main_arg0, h_main_arg1, h_main_arg2, h_main_v18, h_main_v25, h_main_v100⟩ := h
  refine ⟨?_, ?_, ?_, ?_, ?_, ?_⟩
  · after_results_simp <;> exact h_main_arg0
  · after_results_simp <;> exact h_main_arg1
  · after_results_simp <;> exact h_main_arg2
  · after_results_simp <;> exact h_main_v25
  · after_results_simp <;> (try simp only [h_main_arg0, h_main_arg1, h_main_arg2, h_main_v18, h_main_v25, h_main_v100]) <;> rfl
  · after_results_simp <;> (try simp only [h_main_arg0, h_main_arg1, h_main_arg2, h_main_v18, h_main_v25, h_main_v100]) <;> rfl

set_option maxRecDepth 8192 in
set_option maxHeartbeats 4000000 in
theorem step18 {V : Valuation τ sig (Elt F)} {X Y : Vec F S64x51x64x64 .f32} {W : Vec F S64x17 .f32}
    (h : Inv17 V X Y W) : Inv18 (after c18 V) X Y W := by
  obtain ⟨h_main_arg0, h_main_arg1, h_main_arg2, h_main_v25, h_main_v105, h_main_v106⟩ := h
  refine ⟨?_, ?_, ?_, ?_⟩
  · after_results_simp <;> exact h_main_arg0
  · after_results_simp <;> exact h_main_arg1
  · after_results_simp <;> exact h_main_arg2
  · after_results_simp <;> (try simp only [h_main_arg0, h_main_arg1, h_main_arg2, h_main_v25, h_main_v105, h_main_v106]) <;> rfl

theorem invEnd (V : Valuation τ sig (Elt F)) :
    Inv18 (after ops V) (V (main_arg0 : DevRef τ sig)) (V (main_arg1 : DevRef τ sig)) (V (main_arg2 : DevRef τ sig)) := by
  rw [ops_chunks]
  simp only [after_app]
  exact step18 (step17 (step16 (step15 (step14 (step13 (step12 (step11 (step10 (step9 (step8 (step7 (step6 (step5 (step4 (step3 (step2 (step1 (inv0 V))))))))))))))))))

/-- The reference runs operation by operation; after each group of operations the live values are the named terms. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v113) = RefTerm.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => by
      have h := invEnd (F := F) (launchContents m c)
      unfold Inv18 at h
      exact ⟨(hr c main_v113).trans h.2.2.2, (hr c main_arg0).trans h.1, (hr c main_arg1).trans h.2.1, (hr c main_arg2).trans h.2.2.1⟩)
    (run_seq scopedRefs_eq scopedSems_eq defs main (fun _ => ops) main_eq (fun _ => ops_sub) m ρ (fun _ => ops_fresh))

end Cert.ReferenceIdeal.RefRun

end
-- ==== Proof.RefValueInt.lean ====
import proofs.«405258_j67929202754306_4_alg».proof.Proof.RefTerm
import Idealize.ShloMosaic.Lib.ValueIdx

noncomputable section

namespace Cert.ReferenceIdeal.RefValue

open Cert.ReferenceIdeal Cert.ReferenceIdeal.Gen Cert.ReferenceIdeal.RefTerm Idealize.ShloMosaic Idealize.ShloMosaic.ValueIdx

set_option maxRecDepth 16384 in

/-- For p below 4096 the floor quotient by 64 needs no sign correction: decided over the 4096 pixels. -/
theorem v27_apply_all : ∀ p : Fin 4096, v27 (ix1 p) = BitVec.ofNat 32 (p.val / 64) := by
  decide +kernel

set_option maxRecDepth 16384 in

theorem v29_apply_all : ∀ p : Fin 4096, v29 (ix1 p) = BitVec.ofNat 32 (p.val % 64) := by
  decide +kernel

end Cert.ReferenceIdeal.RefValue

end
-- ==== Proof.RefValue.lean ====
import proofs.«405258_j67929202754306_4_alg».proof.Proof.RefTerm
import proofs.«405258_j67929202754306_4_alg».proof.Proof.RefValueInt
import proofs.«405258_j67929202754306_4_alg».proof.Proof.Loss
import proofs.«405258_j67929202754306_4_alg».proof.Proof.SumLaws
import Idealize.ShloMosaic.Lib.Pipeline.Value
import Idealize.ShloMosaic.Lib.IdealHost
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.RefTerm Idealize.ShloMosaic Idealize.ShloMosaic.ValueIdx Cert.Loss

def row (p : Fin 4096) : Fin 64 := ⟨p.val / 64, by have := p.isLt; omega⟩

def col (p : Fin 4096) : Fin 64 := ⟨p.val % 64, by omega⟩

theorem regroup_apply (X : Vec Ideal S64x51x64x64 .f32) (b : Fin 64) (k : Fin 17) (o : Fin 3) (p : Fin 4096) :
    regroup X (ix4 b k o p) = X (ix4 b (chan k o) (row p) (col p)) := by
  unfold regroup
  refine shapeCast_apply X _ _ _ ?_
  rw [Shape.rowMajor_val_four, Shape.rowMajor_val_four]
  show ((b.val * 51 + (3 * k.val + o.val)) * 64 + p.val / 64) * 64 + p.val % 64 = ((b.val * 17 + k.val) * 3 + o.val) * 4096 + p.val
  have := p.isLt
  omega

theorem plane_apply (X : Vec Ideal S64x51x64x64 .f32) (o : Fin 3) (off : Fin 4 → Nat) (hoff : off = ![0, 0, o.val, 0])
    (hs : S64x17x3x4096.Slices off S64x17x1x4096) (b : Fin 64) (k : Fin 17) (p : Fin 4096) :
    shapeCast S64x17x4096 (extractStridedSlice S64x17x1x4096 off (regroup X) hs) shapeCasts_S64x17x1x4096_S64x17x4096 (ix3 b k p)
      = X (ix4 b (chan k o) (row p) (col p)) := by
  subst hoff
  rw [shapeCast_apply _ shapeCasts_S64x17x1x4096_S64x17x4096 (ix3 b k p) (ix4 b k (0 : Fin 1) p) (by
    rw [Shape.rowMajor_val_four, Shape.rowMajor_val_three]
    show ((b.val * 17 + k.val) * 1 + 0) * 4096 + p.val = (b.val * 17 + k.val) * 4096 + p.val
    omega)]
  rw [extractStridedSlice_apply _ _ hs (ix4 b k (0 : Fin 1) p) (ix4 b k o p) (by
    intro a
    match a with
    | ⟨0, _⟩ => simp
    | ⟨1, _⟩ => simp
    | ⟨2, _⟩ => simp
    | ⟨3, _⟩ => simp)]
  exact regroup_apply X b k o p

theorem v3_apply (X : Vec Ideal S64x51x64x64 .f32) (b : Fin 64) (k : Fin 17) (p : Fin 4096) :
    v3 X (ix3 b k p) = X (ix4 b (chan k 0) (row p) (col p)) := plane_apply X 0 _ rfl _ b k p
theorem v5_apply (X : Vec Ideal S64x51x64x64 .f32) (b : Fin 64) (k : Fin 17) (p : Fin 4096) :
    v5 X (ix3 b k p) = X (ix4 b (chan k 1) (row p) (col p)) := plane_apply X 1 _ rfl _ b k p
theorem v7_apply (X : Vec Ideal S64x51x64x64 .f32) (b : Fin 64) (k : Fin 17) (p : Fin 4096) :
    v7 X (ix3 b k p) = X (ix4 b (chan k 2) (row p) (col p)) := plane_apply X 2 _ rfl _ b k p
theorem v9_apply (Y : Vec Ideal S64x51x64x64 .f32) (b : Fin 64) (k : Fin 17) (p : Fin 4096) :
    v9 Y (ix3 b k p) = Y (ix4 b (chan k 0) (row p) (col p)) := plane_apply Y 0 _ rfl _ b k p
theorem v11_apply (Y : Vec Ideal S64x51x64x64 .f32) (b : Fin 64) (k : Fin 17) (p : Fin 4096) :
    v11 Y (ix3 b k p) = Y (ix4 b (chan k 1) (row p) (col p)) := plane_apply Y 1 _ rfl _ b k p
theorem v13_apply (Y : Vec Ideal S64x51x64x64 .f32) (b : Fin 64) (k : Fin 17) (p : Fin 4096) :
    v13 Y (ix3 b k p) = Y (ix4 b (chan k 2) (row p) (col p)) := plane_apply Y 2 _ rfl _ b k p

theorem v15_apply (W : Vec Ideal S64x17 .f32) (b : Fin 64) (k : Fin 17) (p : Fin 4096) : v15 W (ix3 b k p) = W (ix2 b k) := by
  unfold v15
  rw [broadcastInDim_apply _ _ _ (ix3 b k p) (ix3 b k (0 : Fin 1)) (by
    intro a; match a with | ⟨0, _⟩ => rfl | ⟨1, _⟩ => rfl | ⟨2, _⟩ => rfl)]
  exact broadcastInDim_apply _ _ W (ix3 b k (0 : Fin 1)) (ix2 b k) (by
    intro a; match a with | ⟨0, _⟩ => rfl | ⟨1, _⟩ => rfl)

theorem spread_apply (u : Vec Ideal S4096 .f32) (b : Fin 64) (k : Fin 17) (p : Fin 4096) : spread u (ix3 b k p) = u (ix1 p) := by
  unfold spread
  rw [broadcastInDim_apply _ _ _ (ix3 b k p) (ix3 (0 : Fin 1) (0 : Fin 1) p) (by
    intro a; match a with | ⟨0, _⟩ => rfl | ⟨1, _⟩ => rfl | ⟨2, _⟩ => rfl)]
  exact broadcastInDim_apply _ _ u _ (ix1 p) (by intro a; match a with | ⟨0, _⟩ => rfl)

theorem v27_apply (p : Fin 4096) : v27 (ix1 p) = BitVec.ofNat 32 (row p).val := v27_apply_all p

theorem v29_apply (p : Fin 4096) : v29 (ix1 p) = BitVec.ofNat 32 (col p).val := v29_apply_all p

theorem clipFloor_apply (i : S64x17x4096.Idx) : clipFloor (F := Ideal) i = zeroC := rfl

theorem tiny_apply (i : S64x17x4096.Idx) : tiny (F := Ideal) i = epsC := rfl

theorem oneBc_apply (i : S64x17x4096.Idx) :
    broadcastInDim S64x17x4096 ![] bcast_S_S64x17x4096 (constant (F := Ideal) S_ .f32 0x3F800000#32) i = oneC := rfl

theorem v28_apply (p : Fin 4096) : v28 (F := Ideal) (ix1 p) = coord (row p).val := by
  show ((((v27 (ix1 p)).toInt : ℝ)) : EReal) = _
  rw [v27_apply]; rfl

theorem v30_apply (p : Fin 4096) : v30 (F := Ideal) (ix1 p) = coord (col p).val := by
  show ((((v29 (ix1 p)).toInt : ℝ)) : EReal) = _
  rw [v29_apply]; rfl

theorem v20_apply (X Y : Vec Ideal S64x51x64x64 .f32) (W : Vec Ideal S64x17 .f32) (b : Fin 64) (k : Fin 17) (p : Fin 4096) :
    v20 X Y W (ix3 b k p) = sqAt X Y W b k (row p) (col p) := by
  show (v3 X (ix3 b k p) * v15 W (ix3 b k p) - v9 Y (ix3 b k p) * v15 W (ix3 b k p))
      * (v3 X (ix3 b k p) * v15 W (ix3 b k p) - v9 Y (ix3 b k p) * v15 W (ix3 b k p)) = _
  rw [v3_apply, v9_apply, v15_apply]
  rfl

theorem v103_apply (Y : Vec Ideal S64x51x64x64 .f32) (W : Vec Ideal S64x17 .f32) (b : Fin 64) (k : Fin 17) (p : Fin 4096) :
    v103 Y W (ix3 b k p) = maskAt Y W b k (row p) (col p) := by
  show ((((Ideal.cmp .une (v9 Y (ix3 b k p) * v15 W (ix3 b k p)) zeroC).toNat : ℝ)) : EReal) = _
  rw [v9_apply, v15_apply]
  rfl

theorem v100_unfold (X Y : Vec Ideal S64x51x64x64 .f32) (i : S64x17x4096.Idx) :
    v100 X Y i = oneC - (Ideal.div (v75 X Y i) (v85 X Y i) - Ideal.div (v94 X Y i - v85 X Y i) (v94 X Y i)) := rfl

theorem v100_apply (X Y : Vec Ideal S64x51x64x64 .f32) (b : Fin 64) (k : Fin 17) (p : Fin 4096) :
    v100 X Y (ix3 b k p) = lossCell (coord (row p).val) (coord (col p).val)
      (X (ix4 b (chan k 1) (row p) (col p))) (X (ix4 b (chan k 2) (row p) (col p)))
      (Y (ix4 b (chan k 1) (row p) (col p))) (Y (ix4 b (chan k 2) (row p) (col p))) := by
  rw [v100_unfold]
  simp only [v94, v85, v75, v70, v74, v66, v63, v60, v57, v54, v51, v48, v45, v42, v39, v36, v33,
    subf_apply, addf_apply, mulf_apply, hostDivf_apply, maximumf_apply, minimumf_apply, spread_apply,
    v28_apply, v30_apply, v5_apply, v7_apply, v11_apply, v13_apply, clipFloor_apply, tiny_apply,
    lossCell, max_comm zeroC]

theorem row_mk (r c : Fin 64) (h : 64 * r.val + c.val < 4096) : row ⟨64 * r.val + c.val, h⟩ = r :=
  Fin.ext (by show (64 * r.val + c.val) / 64 = r.val; have := c.isLt; omega)

theorem col_mk (r c : Fin 64) (h : 64 * r.val + c.val < 4096) : col ⟨64 * r.val + c.val, h⟩ = c :=
  Fin.ext (by show (64 * r.val + c.val) % 64 = c.val; have := c.isLt; omega)

theorem sum_batch_pixels (f : Fin 64 → Fin 4096 → EReal) (g : Fin 64 → Fin 64 → Fin 64 → EReal)
    (hfg : ∀ b p, f b p = g b (row p) (col p)) :
    ∑ b : Fin 64, ∑ p : Fin 4096, f b p = ∑ b : Fin 64, ∑ r : Fin 64, ∑ c : Fin 64, g b r c := by
  refine Finset.sum_congr rfl fun b _ => ?_
  rw [Cert.SumLaws.sum_pixels]
  refine Finset.sum_congr rfl fun r _ => Finset.sum_congr rfl fun c _ => ?_
  rw [hfg, row_mk, col_mk]

theorem reduce_apply (x : Vec Ideal S64x17x4096 .f32) (g : Fin 64 → Fin 64 → Fin 64 → EReal) (k : Fin 17)
    (hx : ∀ b p, x (ix3 b k p) = g b (row p) (col p)) :
    Host.reduceAdd x (constant (F := Ideal) S_ .f32 0x00000000#32) reducesTo_S64x17x4096_S17_d0_2 h_S_ (ix1 k)
      = zeroC + ∑ b : Fin 64, ∑ r : Fin 64, ∑ c : Fin 64, g b r c := by
  rw [hostReduceAdd_apply]
  show Ideal.hostReduceAdd reducesTo_S64x17x4096_S17_d0_2 x zeroC (ix1 k) = _
  rw [Cert.SumLaws.hostReduce_batch_pixels, sum_batch_pixels _ g hx]

theorem v21_apply (X Y : Vec Ideal S64x51x64x64 .f32) (W : Vec Ideal S64x17 .f32) (k : Fin 17) :
    v21 X Y W (ix1 k) = zeroC + sumSq X Y W k :=
  reduce_apply (v20 X Y W) (fun b r c => sqAt X Y W b k r c) k fun b p => v20_apply X Y W b k p

theorem v104_apply (X Y : Vec Ideal S64x51x64x64 .f32) (W : Vec Ideal S64x17 .f32) (b : Fin 64) (k : Fin 17) (p : Fin 4096) :
    v104 X Y W (ix3 b k p) = numAt X Y W b k (row p) (col p) := by
  show v100 X Y (ix3 b k p) * v103 Y W (ix3 b k p) = _
  rw [v100_apply, v103_apply]
  rfl

theorem v105_apply (X Y : Vec Ideal S64x51x64x64 .f32) (W : Vec Ideal S64x17 .f32) (k : Fin 17) :
    v105 X Y W (ix1 k) = zeroC + sumNum X Y W k :=
  reduce_apply (v104 X Y W) (fun b r c => numAt X Y W b k r c) k fun b p => v104_apply X Y W b k p

theorem v106_apply (Y : Vec Ideal S64x51x64x64 .f32) (W : Vec Ideal S64x17 .f32) (k : Fin 17) :
    v106 Y W (ix1 k) = zeroC + sumDen Y W k :=
  reduce_apply (v103 Y W) (fun b r c => maskAt Y W b k r c) k fun b p => v103_apply Y W b k p

theorem v110_apply (X Y : Vec Ideal S64x51x64x64 .f32) (W : Vec Ideal S64x17 .f32) (k : Fin 17) :
    v110 X Y W (ix1 k) = jointTerm (sumSq X Y W k) (sumNum X Y W k) (sumDen Y W k) := by
  show halfC * Ideal.div (v21 X Y W (ix1 k)) countC + Ideal.div (v105 X Y W (ix1 k)) (max (v106 Y W (ix1 k)) oneC) = _
  rw [v21_apply, v105_apply, v106_apply, Cert.SumLaws.jointTerm_ref]

/-- Stage by stage the reference's term is the loss: pointwise stages are the pixel cells, the three reductions the triple sums. -/
theorem out_eq (X Y : Vec Ideal S64x51x64x64 .f32) (W : Vec Ideal S64x17 .f32) :
    RefTerm.out (F := Ideal) X Y W = fun _ => Cert.Loss.total X Y W := by
  funext i
  show Ideal.div (v111 X Y W i) jointsC * oneC = _
  have h111 : v111 X Y W i = zeroC + ∑ k : Fin 17, v110 X Y W (ix1 k) := by
    rw [eq_ix0 i]
    show Ideal.hostReduceAdd reducesTo_S17_S_d0 (v110 X Y W) zeroC ix0 = _
    rw [Cert.SumLaws.hostReduce_joints]
  rw [h111, Cert.SumLaws.zeroC_eq, zero_add]
  simp only [v110_apply]
  rfl

end Cert.ReferenceIdeal.RefValue

end
-- ==== Proof.lean ====
import proofs.«405258_j67929202754306_4_alg».proof.Defs
import proofs.«405258_j67929202754306_4_alg».proof.Proof.Gen.Kernel
import proofs.«405258_j67929202754306_4_alg».proof.Proof.Gen.Kernel.Skeleton
import proofs.«405258_j67929202754306_4_alg».proof.Proof.Gen.Kernel.Launch
import proofs.«405258_j67929202754306_4_alg».proof.Proof.Gen.Kernel.Points
import proofs.«405258_j67929202754306_4_alg».proof.Proof.Gen.Kernel.Frame
import proofs.«405258_j67929202754306_4_alg».proof.Proof.Gen.KernelIdeal
import proofs.«405258_j67929202754306_4_alg».proof.Proof.Gen.KernelIdeal.Skeleton
import proofs.«405258_j67929202754306_4_alg».proof.Proof.Gen.KernelIdeal.Launch
import proofs.«405258_j67929202754306_4_alg».proof.Proof.Gen.KernelIdeal.Points
import proofs.«405258_j67929202754306_4_alg».proof.Proof.Gen.KernelIdeal.Frame
import proofs.«405258_j67929202754306_4_alg».proof.Proof.Gen.ReferenceIdeal
import proofs.«405258_j67929202754306_4_alg».proof.Proof.Gen.Pre_finite_inputs
import proofs.«405258_j67929202754306_4_alg».proof.Proof.KernAcc
import proofs.«405258_j67929202754306_4_alg».proof.Proof.RefRun
import proofs.«405258_j67929202754306_4_alg».proof.Proof.RefValue
import Idealize.ShloMosaic.Adequacy
import Idealize.ShloMosaic.Init

noncomputable section

namespace Cert.Proof

open Idealize.ShloMosaic Idealize.SL.Sem

theorem frame_ref : Cert.frame_ReferenceIdeal := fun m ρ _ =>
  (θ_run Cert.ReferenceIdeal.defs _ _).mono (fun _ h c => (h c).2)
    (Cert.ReferenceIdeal.RefRun.run (F := Ideal) m ρ)

/-- Both idealized programs end at the loss of the same arrays: sums of extended reals do not depend on their order. -/
theorem algebraic : Cert.algebraic_KernelIdeal_ReferenceIdeal := by
  intro m ρ m' ρ' _ hagree
  refine ⟨fun c => fun _ => Cert.Loss.total (Cert.KernelIdeal.KernAcc.argX m c) (Cert.KernelIdeal.KernAcc.argY m c)
    (Cert.KernelIdeal.KernAcc.argW m c), Cert.KernelIdeal.KernAcc.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.out_eq _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
